-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S50000 : Shape := ⟨1, ![50000]⟩
abbrev S1600000 : Shape := ⟨1, ![1600000]⟩
abbrev S500000x64 : Shape := ⟨2, ![500000, 64]⟩
abbrev S200000x64 : Shape := ⟨2, ![200000, 64]⟩
abbrev S3x64 : Shape := ⟨2, ![3, 64]⟩
abbrev S20x64 : Shape := ⟨2, ![20, 64]⟩
abbrev S6x64x64 : Shape := ⟨3, ![6, 64, 64]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S3x64 : S_.BroadcastsInDim S3x64 (![] : Fin 0 → Fin S3x64.rank)
  reducesTo_S3x64_S_d0_1 : S3x64.ReducesTo [0, 1] S_
  bcast_S_S20x64 : S_.BroadcastsInDim S20x64 (![] : Fin 0 → Fin S20x64.rank)
  reducesTo_S20x64_S_d0_1 : S20x64.ReducesTo [0, 1] S_
  bcast_S_S6x64x64 : S_.BroadcastsInDim S6x64x64 (![] : Fin 0 → Fin S6x64x64.rank)
  reducesTo_S6x64x64_S_d0_1_2 : S6x64x64.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg6 : IVec S1600000 32) (main_v80 : IVec S_ 1) (main_v83 : IVec S_ 1) : IVec S_ 1 :=
  let main_v84 : IVec S_ 1 := andi main_v80 main_v83
  let main_c_34 : IVec S_ 32 := constantI S_ 32 0#32
  let main_v85 : IVec S1600000 32 := broadcastInDim S1600000 ![] bcast_S_S1600000 main_c_34
  let main_v86 : IVec S1600000 1 := cmpi .sge main_arg6 main_v85
  let main_c_35 : IVec S_ 1 := constantI S_ 1 1#1
  let main_v87 : IVec S_ 1 := (fun x v => Host.reduce IntOp.andi x v reducesTo_S1600000_S_d0 h_S_) main_v86 main_c_35
  let main_v88 : IVec S_ 1 := andi main_v84 main_v87
  let main_c_36 : IVec S_ 32 := constantI S_ 32 6#32
  let main_v89 : IVec S1600000 32 := broadcastInDim S1600000 ![] bcast_S_S1600000 main_c_36
  let main_v90 : IVec S1600000 1 := cmpi .slt main_arg6 main_v89
  let main_c_37 : IVec S_ 1 := constantI S_ 1 1#1
  let main_v91 : IVec S_ 1 := (fun x v => Host.reduce IntOp.andi x v reducesTo_S1600000_S_d0 h_S_) main_v90 main_c_37
  let main_v92 : IVec S_ 1 := andi main_v88 main_v91
  main_v92

def fn_part4 {F : FTy → Type} [FloatOps F] (main_arg4 : IVec S1600000 32) (main_arg5 : IVec S1600000 32) (main_arg6 : IVec S1600000 32) (main_v63 : IVec S_ 1) (main_v67 : IVec S_ 1) : IVec S_ 1 :=
  let main_v68 : IVec S_ 1 := andi main_v63 main_v67
  let main_c_26 : IVec S_ 32 := constantI S_ 32 0#32
  let main_v69 : IVec S1600000 32 := broadcastInDim S1600000 ![] bcast_S_S1600000 main_c_26
  let main_v70 : IVec S1600000 1 := cmpi .sge main_arg4 main_v69
  let main_c_27 : IVec S_ 1 := constantI S_ 1 1#1
  let main_v71 : IVec S_ 1 := (fun x v => Host.reduce IntOp.andi x v reducesTo_S1600000_S_d0 h_S_) main_v70 main_c_27
  let main_v72 : IVec S_ 1 := andi main_v68 main_v71
  let main_c_28 : IVec S_ 32 := constantI S_ 32 100000#32
  let main_v73 : IVec S1600000 32 := broadcastInDim S1600000 ![] bcast_S_S1600000 main_c_28
  let main_v74 : IVec S1600000 1 := cmpi .slt main_arg4 main_v73
  let main_c_29 : IVec S_ 1 := constantI S_ 1 1#1
  let main_v75 : IVec S_ 1 := (fun x v => Host.reduce IntOp.andi x v reducesTo_S1600000_S_d0 h_S_) main_v74 main_c_29
  let main_v76 : IVec S_ 1 := andi main_v72 main_v75
  let main_c_30 : IVec S_ 32 := constantI S_ 32 0#32
  let main_v77 : IVec S1600000 32 := broadcastInDim S1600000 ![] bcast_S_S1600000 main_c_30
  let main_v78 : IVec S1600000 1 := cmpi .sge main_arg5 main_v77
  let main_c_31 : IVec S_ 1 := constantI S_ 1 1#1
  let main_v79 : IVec S_ 1 := (fun x v => Host.reduce IntOp.andi x v reducesTo_S1600000_S_d0 h_S_) main_v78 main_c_31
  let main_v80 : IVec S_ 1 := andi main_v76 main_v79
  let main_c_32 : IVec S_ 32 := constantI S_ 32 50000#32
  let main_v81 : IVec S1600000 32 := broadcastInDim S1600000 ![] bcast_S_S1600000 main_c_32
  let main_v82 : IVec S1600000 1 := cmpi .slt main_arg5 main_v81
  let main_c_33 : IVec S_ 1 := constantI S_ 1 1#1
  let main_v83 : IVec S_ 1 := (fun x v => Host.reduce IntOp.andi x v reducesTo_S1600000_S_d0 h_S_) main_v82 main_c_33
  fn_part5 (F := F) main_arg6 main_v80 main_v83

def fn_part3 {F : FTy → Type} [FloatOps F] (main_arg4 : IVec S1600000 32) (main_arg5 : IVec S1600000 32) (main_arg6 : IVec S1600000 32) (main_arg18 : FVec F S64 .f32) (main_arg19 : FVec F S64x64 .f32) (main_arg20 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg18
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg19
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg20
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg4 main_arg5 main_arg6 main_v63 main_v67

def fn_part2 {F : FTy → Type} [FloatOps F] (main_arg4 : IVec S1600000 32) (main_arg5 : IVec S1600000 32) (main_arg6 : IVec S1600000 32) (main_arg14 : FVec F S64 .f32) (main_arg15 : FVec F S64x128 .f32) (main_arg16 : FVec F S64 .f32) (main_arg17 : FVec F S64x64 .f32) (main_arg18 : FVec F S64 .f32) (main_arg19 : FVec F S64x64 .f32) (main_arg20 : FVec F S64 .f32) (main_v33 : IVec S_ 1) : IVec S_ 1 :=
  let main_v34 : FVec F S64 .f32 := Host.absf main_arg14
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg15
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg16
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg17
  let main_cst_18 : FVec F S_ .f32 := constant S_ .f32 0x7F800000#32
  let main_v50 : FVec F S64x64 .f32 := broadcastInDim S64x64 ![] bcast_S_S64x64 main_cst_18
  fn_part3 (F := F) main_arg4 main_arg5 main_arg6 main_arg18 main_arg19 main_arg20 main_v48 main_v49 main_v50

def fn_part1 {F : FTy → Type} [FloatOps F] (main_arg4 : IVec S1600000 32) (main_arg5 : IVec S1600000 32) (main_arg6 : IVec S1600000 32) (main_arg11 : FVec F S6x64x64 .f32) (main_arg12 : FVec F S6x64x64 .f32) (main_arg13 : FVec F S64x128 .f32) (main_arg14 : FVec F S64 .f32) (main_arg15 : FVec F S64x128 .f32) (main_arg16 : FVec F S64 .f32) (main_arg17 : FVec F S64x64 .f32) (main_arg18 : FVec F S64 .f32) (main_arg19 : FVec F S64x64 .f32) (main_arg20 : FVec F S64 .f32) (main_v13 : IVec S_ 1) (main_v16 : IVec S20x64 1) : IVec S_ 1 :=
  let main_c_5 : IVec S_ 1 := constantI S_ 1 1#1
  let main_v17 : IVec S_ 1 := (fun x v => Host.reduce IntOp.andi x v reducesTo_S20x64_S_d0_1 h_S_) main_v16 main_c_5
  let main_v18 : IVec S_ 1 := andi main_v13 main_v17
  let main_v19 : FVec F S6x64x64 .f32 := Host.absf main_arg11
  let main_cst_6 : FVec F S_ .f32 := constant S_ .f32 0x7F800000#32
  let main_v20 : FVec F S6x64x64 .f32 := broadcastInDim S6x64x64 ![] bcast_S_S6x64x64 main_cst_6
  let main_v21 : IVec S6x64x64 1 := cmpf .olt main_v19 main_v20
  let main_c_7 : IVec S_ 1 := constantI S_ 1 1#1
  let main_v22 : IVec S_ 1 := (fun x v => Host.reduce IntOp.andi x v reducesTo_S6x64x64_S_d0_1_2 h_S_) main_v21 main_c_7
  let main_v23 : IVec S_ 1 := andi main_v18 main_v22
  let main_v24 : FVec F S6x64x64 .f32 := Host.absf main_arg12
  let main_cst_8 : FVec F S_ .f32 := constant S_ .f32 0x7F800000#32
  let main_v25 : FVec F S6x64x64 .f32 := broadcastInDim S6x64x64 ![] bcast_S_S6x64x64 main_cst_8
  let main_v26 : IVec S6x64x64 1 := cmpf .olt main_v24 main_v25
  let main_c_9 : IVec S_ 1 := constantI S_ 1 1#1
  let main_v27 : IVec S_ 1 := (fun x v => Host.reduce IntOp.andi x v reducesTo_S6x64x64_S_d0_1_2 h_S_) main_v26 main_c_9
  let main_v28 : IVec S_ 1 := andi main_v23 main_v27
  let main_v29 : FVec F S64x128 .f32 := Host.absf main_arg13
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg4 main_arg5 main_arg6 main_arg14 main_arg15 main_arg16 main_arg17 main_arg18 main_arg19 main_arg20 main_v33

def fn {F : FTy → Type} [FloatOps F] (main_arg0 : IVec S100000 32) (main_arg1 : IVec S50000 32) (main_arg2 : IVec S100000 32) (main_arg3 : IVec S50000 32) (main_arg4 : IVec S1600000 32) (main_arg5 : IVec S1600000 32) (main_arg6 : IVec S1600000 32) (main_arg7 : FVec F S500000x64 .f32) (main_arg8 : FVec F S200000x64 .f32) (main_arg9 : FVec F S3x64 .f32) (main_arg10 : FVec F S20x64 .f32) (main_arg11 : FVec F S6x64x64 .f32) (main_arg12 : FVec F S6x64x64 .f32) (main_arg13 : FVec F S64x128 .f32) (main_arg14 : FVec F S64 .f32) (main_arg15 : FVec F S64x128 .f32) (main_arg16 : FVec F S64 .f32) (main_arg17 : FVec F S64x64 .f32) (main_arg18 : FVec F S64 .f32) (main_arg19 : FVec F S64x64 .f32) (main_arg20 : FVec F S64 .f32) : IVec S_ 1 :=
  let main_v0 : FVec F S500000x64 .f32 := Host.absf main_arg7
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S200000x64 .f32 := Host.absf main_arg8
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S3x64 .f32 := Host.absf main_arg9
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S20x64 .f32 := Host.absf main_arg10
  let main_cst_4 : FVec F S_ .f32 := constant S_ .f32 0x7F800000#32
  let main_v15 : FVec F S20x64 .f32 := broadcastInDim S20x64 ![] bcast_S_S20x64 main_cst_4
  let main_v16 : IVec S20x64 1 := cmpf .olt main_v14 main_v15
  fn_part1 (F := F) main_arg4 main_arg5 main_arg6 main_arg11 main_arg12 main_arg13 main_arg14 main_arg15 main_arg16 main_arg17 main_arg18 main_arg19 main_arg20 main_v13 main_v16
-- ==== Kernel.lean ====
abbrev S100000 : Shape := ⟨1, ![100000]⟩
abbrev S50000 : Shape := ⟨1, ![50000]⟩
abbrev S1600000 : Shape := ⟨1, ![1600000]⟩
abbrev S500000x64 : Shape := ⟨2, ![500000, 64]⟩
abbrev S200000x64 : Shape := ⟨2, ![200000, 64]⟩
abbrev S3x64 : Shape := ⟨2, ![3, 64]⟩
abbrev S20x64 : Shape := ⟨2, ![20, 64]⟩
abbrev S6x64x64 : Shape := ⟨3, ![6, 64, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S100000x1 : Shape := ⟨2, ![100000, 1]⟩
abbrev S100000x64 : Shape := ⟨2, ![100000, 64]⟩
abbrev S50000x1 : Shape := ⟨2, ![50000, 1]⟩
abbrev S50000x64 : Shape := ⟨2, ![50000, 64]⟩
abbrev S1600000x1 : Shape := ⟨2, ![1600000, 1]⟩
abbrev S1600000x64 : Shape := ⟨2, ![1600000, 64]⟩
abbrev S300000x64 : Shape := ⟨2, ![300000, 64]⟩
abbrev S6x50000x64 : Shape := ⟨3, ![6, 50000, 64]⟩
abbrev S600000x64 : Shape := ⟨2, ![600000, 64]⟩
abbrev S6x100000x64 : Shape := ⟨3, ![6, 100000, 64]⟩
abbrev S1x5000x64 : Shape := ⟨3, ![1, 5000, 64]⟩
abbrev S1x64x64 : Shape := ⟨3, ![1, 64, 64]⟩
abbrev S5000x64 : Shape := ⟨2, ![5000, 64]⟩
abbrev S128x64 : Shape := ⟨2, ![128, 64]⟩
abbrev S1x64 : Shape := ⟨2, ![1, 64]⟩
abbrev S5000x128 : Shape := ⟨2, ![5000, 128]⟩

abbrev nBuf : Space → Nat
  | .hbm => 141
  | .vmem => 34
  | .smem => 0
  | _ => 0

abbrev hbmTy0_0 (i : Nat) : BufTy := match i % 128 with
  | 0 => ⟨S100000, .i32⟩
  | 1 => ⟨S50000, .i32⟩
  | 2 => ⟨S100000, .i32⟩
  | 3 => ⟨S50000, .i32⟩
  | 4 => ⟨S1600000, .i32⟩
  | 5 => ⟨S1600000, .i32⟩
  | 6 => ⟨S1600000, .i32⟩
  | 7 => ⟨S500000x64, .f32⟩
  | 8 => ⟨S200000x64, .f32⟩
  | 9 => ⟨S3x64, .f32⟩
  | 10 => ⟨S20x64, .f32⟩
  | 11 => ⟨S6x64x64, .f32⟩
  | 12 => ⟨S6x64x64, .f32⟩
  | 13 => ⟨S64x128, .f32⟩
  | 14 => ⟨S64, .f32⟩
  | 15 => ⟨S64x128, .f32⟩
  | 16 => ⟨S64, .f32⟩
  | 17 => ⟨S64x64, .f32⟩
  | 18 => ⟨S64, .f32⟩
  | 19 => ⟨S64x64, .f32⟩
  | 20 => ⟨S64, .f32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S100000x64, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x64, .f32⟩
  | 39 => ⟨S100000x64, .f32⟩
  | 40 => ⟨S_, .i32⟩
  | 41 => ⟨S50000, .i32⟩
  | 42 => ⟨S50000, .i1⟩
  | 43 => ⟨S_, .i32⟩
  | 44 => ⟨S50000, .i32⟩
  | 45 => ⟨S50000, .i32⟩
  | 46 => ⟨S50000, .i32⟩
  | 47 => ⟨S50000x1, .i32⟩
  | 48 => ⟨S50000x64, .f32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S50000x64, .f32⟩
  | 58 => ⟨S50000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S_, .f32⟩
  | 78 => ⟨S1600000x1, .f32⟩
  | 79 => ⟨S_, .f32⟩
  | 80 => ⟨S50000x1, .f32⟩
  | 81 => ⟨S1600000x1, .i32⟩
  | 82 => ⟨S50000x1, .f32⟩
  | 83 => ⟨S_, .f32⟩
  | 84 => ⟨S100000x1, .f32⟩
  | 85 => ⟨S1600000x1, .i32⟩
  | 86 => ⟨S100000x1, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x1, .f32⟩
  | 96 => ⟨S1600000x64, .f32⟩
  | 97 => ⟨S1600000x64, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x1, .f32⟩
  | 107 => ⟨S1600000x64, .f32⟩
  | 108 => ⟨S1600000x64, .f32⟩
  | 109 => ⟨S_, .i32⟩
  | 110 => ⟨S1600000, .i32⟩
  | 111 => ⟨S1600000, .i32⟩
  | 112 => ⟨S1600000, .i32⟩
  | 113 => ⟨S_, .i32⟩
  | 114 => ⟨S1600000, .i32⟩
  | 115 => ⟨S1600000, .i32⟩
  | 116 => ⟨S1600000, .i32⟩
  | 117 => ⟨S_, .f32⟩
  | 118 => ⟨S300000x64, .f32⟩
  | 119 => ⟨S1600000x1, .i32⟩
  | 120 => ⟨S300000x64, .f32⟩
  | 121 => ⟨S6x50000x64, .f32⟩
  | 122 => ⟨S_, .f32⟩
  | 123 => ⟨S600000x64, .f32⟩
  | 124 => ⟨S1600000x1, .i32⟩
  | 125 => ⟨S600000x64, .f32⟩
  | 126 => ⟨S6x100000x64, .f32⟩
  | 127 => ⟨S6x64x64, .f32⟩
  | _ => ⟨S100000, .i32⟩

abbrev hbmTy0_1 (i : Nat) : BufTy := match i % 128 with
  | 0 => ⟨S6x64x64, .f32⟩
  | 1 => ⟨S50000x64, .f32⟩
  | 2 => ⟨S100000x64, .f32⟩
  | 3 => ⟨S128x64, .f32⟩
  | 4 => ⟨S64x64, .f32⟩
  | 5 => ⟨S1x64, .f32⟩
  | 6 => ⟨S1x64, .f32⟩
  | 7 => ⟨S50000x64, .f32⟩
  | 8 => ⟨S128x64, .f32⟩
  | 9 => ⟨S64x64, .f32⟩
  | 10 => ⟨S1x64, .f32⟩
  | 11 => ⟨S1x64, .f32⟩
  | 12 => ⟨S100000x64, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S1x5000x64, .f32⟩
  | .local _ .vmem, ⟨1, _⟩ => ⟨S1x5000x64, .f32⟩
  | .local _ .vmem, ⟨2, _⟩ => ⟨S1x64x64, .f32⟩
  | .local _ .vmem, ⟨3, _⟩ => ⟨S1x64x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x5000x64, .f32⟩
  | .local _ .vmem, ⟨8, _⟩ => ⟨S1x5000x64, .f32⟩
  | .local _ .vmem, ⟨9, _⟩ => ⟨S1x64x64, .f32⟩
  | .local _ .vmem, ⟨10, _⟩ => ⟨S1x64x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S128x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S128x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_c_8 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_9 : Ref sig .tc := ⟨.hbm, 68, rfl⟩
abbrev main_v37 : Ref sig .tc := ⟨.hbm, 69, rfl⟩
abbrev main_v38 : Ref sig .tc := ⟨.hbm, 70, rfl⟩
abbrev main_c_10 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst : Ref sig .tc := ⟨.hbm, 77, rfl⟩
abbrev main_v44 : Ref sig .tc := ⟨.hbm, 78, rfl⟩
abbrev main_cst_11 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_12 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_13 : Ref sig .tc := ⟨.hbm, 87, rfl⟩
abbrev main_v51 : Ref sig .tc := ⟨.hbm, 88, rfl⟩
abbrev main_v52 : Ref sig .tc := ⟨.hbm, 89, rfl⟩
abbrev main_c_14 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_15 : Ref sig .tc := ⟨.hbm, 98, rfl⟩
abbrev main_v60 : Ref sig .tc := ⟨.hbm, 99, rfl⟩
abbrev main_v61 : Ref sig .tc := ⟨.hbm, 100, rfl⟩
abbrev main_c_16 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c_17 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_18 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_19 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_20 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨2, ![10, 6], ![false, false]⟩

def k0_cond2 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![20, 6], ![false, false]⟩

def k1_cond2 (i : grid1.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_10 : BitVec 32 := 0#32
  let v17 : BitVec 1 := Scalar.cmpi .ne v16 c0_i32_10
  v17

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S_S100000x1 : S_.BroadcastsInDim S100000x1 (![] : Fin 0 → Fin S100000x1.rank)
  bcast_S1600000x1_S1600000x64_0_1 : S1600000x1.BroadcastsInDim S1600000x64 (![0, 1] : Fin 2 → Fin S1600000x64.rank)
  bcast_S_S300000x64 : S_.BroadcastsInDim S300000x64 (![] : Fin 0 → Fin S300000x64.rank)
  shapeCasts_S300000x64_S6x50000x64 : S300000x64.ShapeCasts S6x50000x64
  bcast_S_S600000x64 : S_.BroadcastsInDim S600000x64 (![] : Fin 0 → Fin S600000x64.rank)
  shapeCasts_S600000x64_S6x100000x64 : S600000x64.ShapeCasts S6x100000x64
  transposes_S6x64x64_S6x64x64_0_2_1 : S6x64x64.Transposes [0, 2, 1] S6x64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  transposes_S64x128_S128x64_1_0 : S64x128.Transposes [1, 0] S128x64
  transposes_S64x64_S64x64_1_0 : S64x64.Transposes [1, 0] S64x64
  shapeCasts_S64_S1x64 : S64.ShapeCasts S1x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S500000x64_S100000x1_S100000x64_1_0_n_n_0_1_164_wf : GatherDims.WF S500000x64 S100000x1 S100000x64 [1] [0] [] [0] [] 1 ![1, 64]
  gather_S3x64_S100000x1_S100000x64_1_0_n_n_0_1_164_wf : GatherDims.WF S3x64 S100000x1 S100000x64 [1] [0] [] [0] [] 1 ![1, 64]
  gather_S200000x64_S50000x1_S50000x64_1_0_n_n_0_1_164_wf : GatherDims.WF S200000x64 S50000x1 S50000x64 [1] [0] [] [0] [] 1 ![1, 64]
  gather_S20x64_S50000x1_S50000x64_1_0_n_n_0_1_164_wf : GatherDims.WF S20x64 S50000x1 S50000x64 [1] [0] [] [0] [] 1 ![1, 64]
  gather_S100000x64_S1600000x1_S1600000x64_1_0_n_n_0_1_164_wf : GatherDims.WF S100000x64 S1600000x1 S1600000x64 [1] [0] [] [0] [] 1 ![1, 64]
  gather_S50000x64_S1600000x1_S1600000x64_1_0_n_n_0_1_164_wf : GatherDims.WF S50000x64 S1600000x1 S1600000x64 [1] [0] [] [0] [] 1 ![1, 64]
  scatter_S50000x1_S1600000x1_S1600000x1_1_0_0_1_wf : ScatterDims.WF S50000x1 S1600000x1 S1600000x1 [1] [0] [0] 1
  scatter_S100000x1_S1600000x1_S1600000x1_1_0_0_1_wf : ScatterDims.WF S100000x1 S1600000x1 S1600000x1 [1] [0] [0] 1
  gather_S50000x1_S1600000x1_S1600000x1_1_0_n_n_0_1_11_wf : GatherDims.WF S50000x1 S1600000x1 S1600000x1 [1] [0] [] [0] [] 1 ![1, 1]
  gather_S100000x1_S1600000x1_S1600000x1_1_0_n_n_0_1_11_wf : GatherDims.WF S100000x1 S1600000x1 S1600000x1 [1] [0] [] [0] [] 1 ![1, 1]
  scatter_S300000x64_S1600000x1_S1600000x64_1_0_0_1_wf : ScatterDims.WF S300000x64 S1600000x1 S1600000x64 [1] [0] [0] 1
  scatter_S600000x64_S1600000x1_S1600000x64_1_0_0_1_wf : ScatterDims.WF S600000x64 S1600000x1 S1600000x64 [1] [0] [0] 1
  dot_S5000x64_S64x64_S5000x64_1_0_0_1_n_n_wf : DotDims.WF S5000x64 S64x64 S5000x64 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x64.size a ≤ S6x50000x64.size a
  hwx0_0 : ∀ i : grid0.Coords, EltTy.bits .f32 = 32 ∨ (Rect.block (s := S6x50000x64) S1x5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S6x64x64.size a
  hwx0_1 : ∀ i : grid0.Coords, EltTy.bits .f32 = 32 ∨ (Rect.block (s := S6x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5000x64.size a ≤ S6x100000x64.size a
  hwx1_0 : ∀ i : grid1.Coords, EltTy.bits .f32 = 32 ∨ (Rect.block (s := S6x100000x64) S1x5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S6x64x64.size a
  hwx1_1 : ∀ i : grid1.Coords, EltTy.bits .f32 = 32 ∨ (Rect.block (s := S6x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def gather_S500000x64_S100000x1_S100000x64_1_0_n_n_0_1_164 : GatherDims S500000x64 S100000x1 S100000x64 where
  offsetDims := [1]
  collapsedSliceDims := [0]
  operandBatchingDims := []
  startIndicesBatchingDims := []
  startIndexMap := [0]
  indexVectorDim := 1
  sliceSizes := ![1, 64]
  wf := gather_S500000x64_S100000x1_S100000x64_1_0_n_n_0_1_164_wf
def gather_S3x64_S100000x1_S100000x64_1_0_n_n_0_1_164 : GatherDims S3x64 S100000x1 S100000x64 where
  offsetDims := [1]
  collapsedSliceDims := [0]
  operandBatchingDims := []
  startIndicesBatchingDims := []
  startIndexMap := [0]
  indexVectorDim := 1
  sliceSizes := ![1, 64]
  wf := gather_S3x64_S100000x1_S100000x64_1_0_n_n_0_1_164_wf
def gather_S200000x64_S50000x1_S50000x64_1_0_n_n_0_1_164 : GatherDims S200000x64 S50000x1 S50000x64 where
  offsetDims := [1]
  collapsedSliceDims := [0]
  operandBatchingDims := []
  startIndicesBatchingDims := []
  startIndexMap := [0]
  indexVectorDim := 1
  sliceSizes := ![1, 64]
  wf := gather_S200000x64_S50000x1_S50000x64_1_0_n_n_0_1_164_wf
def gather_S20x64_S50000x1_S50000x64_1_0_n_n_0_1_164 : GatherDims S20x64 S50000x1 S50000x64 where
  offsetDims := [1]
  collapsedSliceDims := [0]
  operandBatchingDims := []
  startIndicesBatchingDims := []
  startIndexMap := [0]
  indexVectorDim := 1
  sliceSizes := ![1, 64]
  wf := gather_S20x64_S50000x1_S50000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S300000x64_S1600000x1_S1600000x64_1_0_0_1 : ScatterDims S300000x64 S1600000x1 S1600000x64 where
  updateWindowDims := [1]
  insertedWindowDims := [0]
  scatterDimsToOperandDims := [0]
  indexVectorDim := 1
  wf := scatter_S300000x64_S1600000x1_S1600000x64_1_0_0_1_wf
def scatter_S600000x64_S1600000x1_S1600000x64_1_0_0_1 : ScatterDims S600000x64 S1600000x1 S1600000x64 where
  updateWindowDims := [1]
  insertedWindowDims := [0]
  scatterDimsToOperandDims := [0]
  indexVectorDim := 1
  wf := scatter_S600000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v78) S1x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v83) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v85) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v82) S1x5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v86) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v87) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v88) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v90) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v91) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v14) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v96) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000 : Shape := ⟨1, ![100000]⟩
abbrev S50000 : Shape := ⟨1, ![50000]⟩
abbrev S1600000 : Shape := ⟨1, ![1600000]⟩
abbrev S500000x64 : Shape := ⟨2, ![500000, 64]⟩
abbrev S200000x64 : Shape := ⟨2, ![200000, 64]⟩
abbrev S3x64 : Shape := ⟨2, ![3, 64]⟩
abbrev S20x64 : Shape := ⟨2, ![20, 64]⟩
abbrev S6x64x64 : Shape := ⟨3, ![6, 64, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S100000x1 : Shape := ⟨2, ![100000, 1]⟩
abbrev S100000x64 : Shape := ⟨2, ![100000, 64]⟩
abbrev S50000x1 : Shape := ⟨2, ![50000, 1]⟩
abbrev S50000x64 : Shape := ⟨2, ![50000, 64]⟩
abbrev S6x64x100000 : Shape := ⟨3, ![6, 64, 100000]⟩
abbrev S6x100000x64 : Shape := ⟨3, ![6, 100000, 64]⟩
abbrev S1600000x1 : Shape := ⟨2, ![1600000, 1]⟩
abbrev S1600000x2 : Shape := ⟨2, ![1600000, 2]⟩
abbrev S1600000x64 : Shape := ⟨2, ![1600000, 64]⟩
abbrev S50000x128 : Shape := ⟨2, ![50000, 128]⟩
abbrev S128x64 : Shape := ⟨2, ![128, 64]⟩
abbrev S1x64 : Shape := ⟨2, ![1, 64]⟩
abbrev S6x64x50000 : Shape := ⟨3, ![6, 64, 50000]⟩
abbrev S6x50000x64 : Shape := ⟨3, ![6, 50000, 64]⟩
abbrev S100000x128 : Shape := ⟨2, ![100000, 128]⟩

abbrev nBuf : Space → Nat
  | .hbm => 157
  | .vmem => 0
  | .smem => 0
  | _ => 0

abbrev hbmTy0_0 (i : Nat) : BufTy := match i % 128 with
  | 0 => ⟨S100000, .i32⟩
  | 1 => ⟨S50000, .i32⟩
  | 2 => ⟨S100000, .i32⟩
  | 3 => ⟨S50000, .i32⟩
  | 4 => ⟨S1600000, .i32⟩
  | 5 => ⟨S1600000, .i32⟩
  | 6 => ⟨S1600000, .i32⟩
  | 7 => ⟨S500000x64, .f32⟩
  | 8 => ⟨S200000x64, .f32⟩
  | 9 => ⟨S3x64, .f32⟩
  | 10 => ⟨S20x64, .f32⟩
  | 11 => ⟨S6x64x64, .f32⟩
  | 12 => ⟨S6x64x64, .f32⟩
  | 13 => ⟨S64x128, .f32⟩
  | 14 => ⟨S64, .f32⟩
  | 15 => ⟨S64x128, .f32⟩
  | 16 => ⟨S64, .f32⟩
  | 17 => ⟨S64x64, .f32⟩
  | 18 => ⟨S64, .f32⟩
  | 19 => ⟨S64x64, .f32⟩
  | 20 => ⟨S64, .f32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S100000x64, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x64, .f32⟩
  | 39 => ⟨S100000x64, .f32⟩
  | 40 => ⟨S_, .i32⟩
  | 41 => ⟨S50000, .i32⟩
  | 42 => ⟨S50000, .i1⟩
  | 43 => ⟨S_, .i32⟩
  | 44 => ⟨S50000, .i32⟩
  | 45 => ⟨S50000, .i32⟩
  | 46 => ⟨S50000, .i32⟩
  | 47 => ⟨S50000x1, .i32⟩
  | 48 => ⟨S50000x64, .f32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S50000x64, .f32⟩
  | 58 => ⟨S50000x64, .f32⟩
  | 59 => ⟨S6x64x100000, .f32⟩
  | 60 => ⟨S6x100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x1, .i32⟩
  | 77 => ⟨S1600000x2, .i32⟩
  | 78 => ⟨S1600000x64, .f32⟩
  | 79 => ⟨S_, .f32⟩
  | 80 => ⟨S50000x64, .f32⟩
  | 81 => ⟨S1600000x1, .i32⟩
  | 82 => ⟨S50000x64, .f32⟩
  | 83 => ⟨S_, .f32⟩
  | 84 => ⟨S1600000x1, .f32⟩
  | 85 => ⟨S_, .f32⟩
  | 86 => ⟨S50000x1, .f32⟩
  | 87 => ⟨S1600000x1, .i32⟩
  | 88 => ⟨S50000x1, .f32⟩
  | 89 => ⟨S_, .f32⟩
  | 90 => ⟨S50000x1, .f32⟩
  | 91 => ⟨S50000x1, .f32⟩
  | 92 => ⟨S50000x64, .f32⟩
  | 93 => ⟨S50000x64, .f32⟩
  | 94 => ⟨S50000x128, .f32⟩
  | 95 => ⟨S128x64, .f32⟩
  | 96 => ⟨S50000x64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S6x64x50000, .f32⟩
  | 104 => ⟨S6x50000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x1, .i32⟩
  | 121 => ⟨S1600000x2, .i32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S_, .f32⟩
  | _ => ⟨S100000, .i32⟩

abbrev hbmTy0_1 (i : Nat) : BufTy := match i % 128 with
  | 0 => ⟨S1600000x1, .f32⟩
  | 1 => ⟨S_, .f32⟩
  | 2 => ⟨S100000x1, .f32⟩
  | 3 => ⟨S1600000x1, .i32⟩
  | 4 => ⟨S100000x1, .f32⟩
  | 5 => ⟨S_, .f32⟩
  | 6 => ⟨S100000x1, .f32⟩
  | 7 => ⟨S100000x1, .f32⟩
  | 8 => ⟨S100000x64, .f32⟩
  | 9 => ⟨S100000x64, .f32⟩
  | 10 => ⟨S100000x128, .f32⟩
  | 11 => ⟨S128x64, .f32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S64x64, .f32⟩
  | 20 => ⟨S100000x64, .f32⟩
  | 21 => ⟨S1x64, .f32⟩
  | 22 => ⟨S100000x64, .f32⟩
  | 23 => ⟨S100000x64, .f32⟩
  | 24 => ⟨S64x64, .f32⟩
  | 25 => ⟨S50000x64, .f32⟩
  | 26 => ⟨S1x64, .f32⟩
  | 27 => ⟨S50000x64, .f32⟩
  | 28 => ⟨S50000x64, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_9 : Ref sig .tc := ⟨.hbm, 68, rfl⟩
abbrev main_v37 : Ref sig .tc := ⟨.hbm, 69, rfl⟩
abbrev main_v38 : Ref sig .tc := ⟨.hbm, 70, rfl⟩
abbrev main_c_10 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_11 : Ref sig .tc := ⟨.hbm, 83, rfl⟩
abbrev main_v49 : Ref sig .tc := ⟨.hbm, 84, rfl⟩
abbrev main_cst_12 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_13 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_call0_cst : Ref sig .tc := ⟨.hbm, 100, rfl⟩
abbrev main_call0_v0 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_14 : Ref sig .tc := ⟨.hbm, 105, rfl⟩
abbrev main_v66 : Ref sig .tc := ⟨.hbm, 106, rfl⟩
abbrev main_v67 : Ref sig .tc := ⟨.hbm, 107, rfl⟩
abbrev main_c_15 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_16 : Ref sig .tc := ⟨.hbm, 112, rfl⟩
abbrev main_v71 : Ref sig .tc := ⟨.hbm, 113, rfl⟩
abbrev main_v72 : Ref sig .tc := ⟨.hbm, 114, rfl⟩
abbrev main_c_17 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_18 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_19 : Ref sig .tc := ⟨.hbm, 127, rfl⟩
abbrev main_v83 : Ref sig .tc := ⟨.hbm, 128, rfl⟩
abbrev main_cst_20 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_21 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_call1_cst : Ref sig .tc := ⟨.hbm, 144, rfl⟩
abbrev main_call1_v0 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  transposes_S6x64x100000_S6x100000x64_0_2_1 : S6x64x100000.Transposes [0, 2, 1] S6x100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S_S50000x64 : S_.BroadcastsInDim S50000x64 (![] : Fin 0 → Fin S50000x64.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S6x64x50000_S6x50000x64_0_2_1 : S6x64x50000.Transposes [0, 2, 1] S6x50000x64
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  transposes_S64x64_S64x64_1_0 : S64x64.Transposes [1, 0] S64x64
  gather_S500000x64_S100000x1_S100000x64_1_0_n_n_0_1_164_wf : GatherDims.WF S500000x64 S100000x1 S100000x64 [1] [0] [] [0] [] 1 ![1, 64]
  gather_S3x64_S100000x1_S100000x64_1_0_n_n_0_1_164_wf : GatherDims.WF S3x64 S100000x1 S100000x64 [1] [0] [] [0] [] 1 ![1, 64]
  gather_S200000x64_S50000x1_S50000x64_1_0_n_n_0_1_164_wf : GatherDims.WF S200000x64 S50000x1 S50000x64 [1] [0] [] [0] [] 1 ![1, 64]
  gather_S20x64_S50000x1_S50000x64_1_0_n_n_0_1_164_wf : GatherDims.WF S20x64 S50000x1 S50000x64 [1] [0] [] [0] [] 1 ![1, 64]
  dot_S6x64x64_S100000x64_S6x64x100000_2_1_01_0_n_n_wf : DotDims.WF S6x64x64 S100000x64 S6x64x100000 [2] [1] [0, 1] [0] [] []
  gather_S6x100000x64_S1600000x2_S1600000x64_1_01_n_n_01_1_1164_wf : GatherDims.WF S6x100000x64 S1600000x2 S1600000x64 [1] [0, 1] [] [0, 1] [] 1 ![1, 1, 64]
  scatter_S50000x64_S1600000x1_S1600000x64_1_0_0_1_wf : ScatterDims.WF S50000x64 S1600000x1 S1600000x64 [1] [0] [0] 1
  scatter_S50000x1_S1600000x1_S1600000x1_1_0_0_1_wf : ScatterDims.WF S50000x1 S1600000x1 S1600000x1 [1] [0] [0] 1
  dot_S50000x128_S128x64_S50000x64_1_0_0_1_n_n_wf : DotDims.WF S50000x128 S128x64 S50000x64 [1] [0] [0] [1] [] []
  dot_S6x64x64_S50000x64_S6x64x50000_2_1_01_0_n_n_wf : DotDims.WF S6x64x64 S50000x64 S6x64x50000 [2] [1] [0, 1] [0] [] []
  gather_S6x50000x64_S1600000x2_S1600000x64_1_01_n_n_01_1_1164_wf : GatherDims.WF S6x50000x64 S1600000x2 S1600000x64 [1] [0, 1] [] [0, 1] [] 1 ![1, 1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  dot_S50000x64_S64x64_S50000x64_1_0_0_1_n_n_wf : DotDims.WF S50000x64 S64x64 S50000x64 [1] [0] [0] [1] [] []

variable [Facts₀]

def gather_S500000x64_S100000x1_S100000x64_1_0_n_n_0_1_164 : GatherDims S500000x64 S100000x1 S100000x64 where
  offsetDims := [1]
  collapsedSliceDims := [0]
  operandBatchingDims := []
  startIndicesBatchingDims := []
  startIndexMap := [0]
  indexVectorDim := 1
  sliceSizes := ![1, 64]
  wf := gather_S500000x64_S100000x1_S100000x64_1_0_n_n_0_1_164_wf
def gather_S3x64_S100000x1_S100000x64_1_0_n_n_0_1_164 : GatherDims S3x64 S100000x1 S100000x64 where
  offsetDims := [1]
  collapsedSliceDims := [0]
  operandBatchingDims := []
  startIndicesBatchingDims := []
  startIndexMap := [0]
  indexVectorDim := 1
  sliceSizes := ![1, 64]
  wf := gather_S3x64_S100000x1_S100000x64_1_0_n_n_0_1_164_wf
def gather_S200000x64_S50000x1_S50000x64_1_0_n_n_0_1_164 : GatherDims S200000x64 S50000x1 S50000x64 where
  offsetDims := [1]
  collapsedSliceDims := [0]
  operandBatchingDims := []
  startIndicesBatchingDims := []
  startIndexMap := [0]
  indexVectorDim := 1
  sliceSizes := ![1, 64]
  wf := gather_S200000x64_S50000x1_S50000x64_1_0_n_n_0_1_164_wf
def gather_S20x64_S50000x1_S50000x64_1_0_n_n_0_1_164 : GatherDims S20x64 S50000x1 S50000x64 where
  offsetDims := [1]
  collapsedSliceDims := [0]
  operandBatchingDims := []
  startIndicesBatchingDims := []
  startIndexMap := [0]
  indexVectorDim := 1
  sliceSizes := ![1, 64]
  wf := gather_S20x64_S50000x1_S50000x64_1_0_n_n_0_1_164_wf
def dot_S6x64x64_S100000x64_S6x64x100000_2_1_01_0_n_n : DotDims S6x64x64 S100000x64 S6x64x100000 where
  lhsContracting := [2]
  rhsContracting := [1]
  lhsNonContracting := [0, 1]
  rhsNonContracting := [0]
  lhsBatch := []
  rhsBatch := []
  wf := dot_S6x64x64_S100000x64_S6x64x100000_2_1_01_0_n_n_wf
def gather_S6x100000x64_S1600000x2_S1600000x64_1_01_n_n_01_1_1164 : GatherDims S6x100000x64 S1600000x2 S1600000x64 where
  offsetDims := [1]
  collapsedSliceDims := [0, 1]
  operandBatchingDims := []
  startIndicesBatchingDims := []
  startIndexMap := [0, 1]
  indexVectorDim := 1
  sliceSizes := ![1, 1, 64]
  wf := gather_S6x100000x64_S1600000x2_S1600000x64_1_01_n_n_01_1_1164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S6x64x64_S50000x64_S6x64x50000_2_1_01_0_n_n : DotDims S6x64x64 S50000x64 S6x64x50000 where
  lhsContracting := [2]
  rhsContracting := [1]
  lhsNonContracting := [0, 1]
  rhsNonContracting := [0]
  lhsBatch := []
  rhsBatch := []
  wf := dot_S6x64x64_S50000x64_S6x64x50000_2_1_01_0_n_n_wf
def gather_S6x50000x64_S1600000x2_S1600000x64_1_01_n_n_01_1_1164 : GatherDims S6x50000x64 S1600000x2 S1600000x64 where
  offsetDims := [1]
  collapsedSliceDims := [0, 1]
  operandBatchingDims := []
  startIndicesBatchingDims := []
  startIndexMap := [0, 1]
  indexVectorDim := 1
  sliceSizes := ![1, 1, 64]
  wf := gather_S6x50000x64_S1600000x2_S1600000x64_1_01_n_n_01_1_1164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.RegAcc0.lean ====
import proofs.«421506_j68049461838612_3_alg».proof.Proof.Gen.Kernel.Launch
import proofs.«421506_j68049461838612_3_alg».proof.Proof.Gen.Kernel.Skeleton
import proofs.«421506_j68049461838612_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev condZ0 (i : grid0.Coords) : Prop := (Scalar.cmpi .ne (Scalar.extui (Scalar.cmpi .eq (BitVec.ofNat 32 (i 1).val) 0#32)) 0#32) = 1#1
abbrev condL0 (i : grid0.Coords) : Prop := k0_cond2 i = 1#1

/-- The body's two tests pick out a row block's first and last rating. -/
theorem hcondZ0 : ∀ t : Fin cfg0.N, condZ0 (grid0.coords t) ↔ t.val % 6 = 0 :=
  (by decide +kernel : ∀ t : Fin grid0.N, condZ0 (grid0.coords t) ↔ t.val % 6 = 0)
theorem hcondL0 : ∀ t : Fin cfg0.N, condL0 (grid0.coords t) ↔ t.val % 6 = 5 :=
  (by decide +kernel : ∀ t : Fin grid0.N, condL0 (grid0.coords t) ↔ t.val % 6 = 5)

theorem zerosTwo0 : (![0, 0] : Fin 2 → Nat) = fun _ => 0 := funext fun a => by fin_cases a <;> rfl
theorem zerosThree0 : (![0, 0, 0] : Fin 3 → Nat) = fun _ => 0 := funext fun a => by fin_cases a <;> rfl

/-- One triple for every point: the accumulator restarts from zero at a first rating, takes this rating's product,
    and is copied to the output block at a last rating. -/
theorem kernel0 (c : Dev nD) (E : Set ℕ) (i : grid0.Coords)
    (arg2 : Memref sig .tc .vmem S1x5000x64 .f32) (harg2 : arg2.IsWhole) (arg3 : Memref sig .tc .vmem S1x64x64 .f32) (harg3 : arg3.IsWhole)
    (arg4 : Memref sig .tc .vmem S5000x64 .f32) (harg4 : arg4.IsWhole) (arg5 : Memref sig .tc .vmem S5000x64 .f32) (harg5 : arg5.IsWhole)
    (hzl : condZ0 i → ¬condL0 i)
    (x0 : Vec F S1x5000x64 .f32) (x1 : Vec F S1x64x64 .f32) (o s : Vec F S5000x64 .f32) (K : PUnit → sProp 𝕄) :
    iprop(owns (c : Thread nD τ) arg2 fullShare x0 ∗ owns (c : Thread nD τ) arg3 fullShare x1 ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare (if condL0 i then k0_pay2 x0 x1 (if condZ0 i then k0_pay1 (F := F) else s) else o)
            ∗ owns (c : Thread nD τ) arg5 fullShare (k0_pay2 x0 x1 (if condZ0 i then k0_pay1 (F := F) else s))) -∗ K ⟨⟩))
      ⊢ wp frame (wpE (defs₀ (F := F)) Variants.none c none) E (cc0__relation_combine_kernel i arg2 harg2 arg3 harg3 arg4 harg4 arg5 harg5) K := by
  have hrd : ∀ (p : Vec F S5000x64 .f32) (l : List (View.Piece (Elt F) S5000x64 .f32)) y,
      ∃ pc ∈ (⟨Rect.unit (s := S5000x64) ![0, 0] S5000x64.size inb_S5000x64_S5000x64_0_0, p⟩ :: l), y ∈ pc.1.set :=
    fun _ _ y => ⟨_, List.mem_cons_self, View.mem_set_unit_zero zerosTwo0 inb_S5000x64_S5000x64_0_0 y⟩
  by_cases hc0 : condZ0 i <;> by_cases hc1 : condL0 i
  · exact absurd hc1 (hzl hc0)
  all_goals
    first | rw [if_pos hc0] | rw [if_neg hc0]
    first | rw [if_pos hc1] | rw [if_neg hc1]
    simp only [cc0__relation_combine_kernel_eq_skeleton]; unfold cc0__relation_combine_kernel_skel
    unfold owns
    iintro ⟨⟨%f0, %hf0, H0⟩, ⟨%f1, %hf1, H1⟩, ⟨%fo, %hfo, H2⟩, ⟨%fs, %hfs, HS⟩, Hk⟩
    subst hf0 hf1 hfo hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2] <;>
    · iexists _; isplitr
      swap; · iassumption
      ipureintro
      sl_unfold_words
      first
      | rfl
      | rw [View.read_writes_eq_canon _ _ _ (hrd _ _), View.canon_cons_unit_zero (S := S5000x64) zerosTwo0]
        simp only [View.readAt_eq_ld, View.ld_unit_zero (S := S1x5000x64) zerosThree0, View.ld_unit_zero (S := S1x64x64) zerosThree0,
          View.ld_unit_zero (S := S5000x64) zerosTwo0, View.readCov_unit_zero (S := S5000x64) _ zerosTwo0]

theorem idleO0 : ∀ t : Fin cfg0.N, ¬condL0 (grid0.coords t) → cfg0.idle 2 (grid0.coords t) = true := by decide +kernel
theorem noFlushO0 : ∀ t : Fin cfg0.N, ¬condL0 (grid0.coords t) → (cfg0.win 2).flush t = false := by decide +kernel
theorem liveO0 : ∀ t : Fin cfg0.N, condL0 (grid0.coords t) → cfg0.idle 2 (grid0.coords t) = false := by decide +kernel

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after grid position `n`: restarted at a row block's first rating, else carried on. -/
def acc0 (c : Dev nD) : (n : ℕ) → n < cfg0.N → Vec F S5000x64 .f32
  | 0, hn => k0_pay2 (iblk0 V c 0 ⟨0, hn⟩) (iblk0 V c 1 ⟨0, hn⟩) (k0_pay1 (F := F))
  | n + 1, hn =>
    if (n + 1) % 6 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h0 : t.val % 6 = 0) :
    acc0 V c t.val t.isLt = k0_pay2 (iblk0 V c 0 t) (iblk0 V c 1 t) (k0_pay1 (F := F)) := by
  obtain ⟨_ | n, hn⟩ := t
  · rfl
  · exact if_pos h0

theorem acc0_next (c : Dev nD) (t : Fin cfg0.N) (h0 : ¬t.val % 6 = 0) :
    acc0 V c t.val t.isLt = k0_pay2 (iblk0 V c 0 t) (iblk0 V c 1 t) (acc0 V c (t.val - 1) (Nat.lt_of_le_of_lt (Nat.sub_le _ _) t.isLt)) := by
  obtain ⟨_ | n, hn⟩ := t
  · exact absurd (Nat.zero_mod _) h0
  · exact if_neg h0

/-- The same step in the shape the body's triple leaves it, over whatever the scratch held before. -/
theorem acc0_step (c : Dev nD) (t : Fin cfg0.N) (s : Vec F S5000x64 .f32)
    (hs : ∀ h : t.val ≠ 0, s = acc0 V c (t.val - 1) (Nat.lt_of_le_of_lt (Nat.sub_le _ _) t.isLt)) :
    k0_pay2 (iblk0 V c 0 t) (iblk0 V c 1 t) (if condZ0 (grid0.coords t) then k0_pay1 (F := F) else s) = acc0 V c t.val t.isLt := by
  by_cases h0 : t.val % 6 = 0
  · rw [acc0_first V c t h0, if_pos ((hcondZ0 t).mpr h0)]
  · rw [acc0_next V c t h0, if_neg (mt (hcondZ0 t).mp h0), hs fun h => h0 (by rw [h])]

/-- The accumulator's buffer at contents `s`, beside the region's other resources. -/
abbrev rest0 (c : Dev nD) (s : Vec F S5000x64 .f32) : sProp 𝕄 :=
  iprop(iprop(owns (c : Thread nD τ) (Memref.whole cc0_scratch0) fullShare s ∗ Pipeline.scopedRestBut (Ix := Unit) (Name := ℕ) (U := UR sig nD τ) (Lvl := ℕ) (Val := Elt F) spec0 c [cc0_scratch0]) ∗ (∃ r, prngReg c r))

theorem PhiA_eq0 (c : Dev nD) : (Pipeline.ΦA spec0 c : sProp 𝕄)
    = iprop(iprop(iprop(∃ d, owns (c : Thread nD τ) (Memref.whole cc0_scratch0) fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [owns_whole]; try rfl

/-- The invariant before position `n`: past the first point the scratch holds what the position before left. -/
def Phi0 (c : Dev nD) (n : ℕ) (hn : n ≤ cfg0.N) : sProp 𝕄 :=
  iprop(∃ s, ⌜∀ h : n ≠ 0, s = acc0 V c (n - 1) (by omega)⌝ ∗ rest0 c s)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := rfl
theorem afterO0 (c : Dev nD) (t : Fin cfg0.N) : (dat0 V c).after 2 t = acc0 V c t.val t.isLt := rfl

theorem beforeS0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem beforeW0 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

/-- The output block is handed on as found off a last rating, and holds the accumulator at one. -/
theorem leavesO0 (c : Dev nD) (t : Fin cfg0.N) (d) :
    owns (c : Thread nD τ) (st0_2 t) fullShare (if condL0 (grid0.coords t) then acc0 V c t.val t.isLt else (dat0 V c).before 2 t d) ⊢ (dat0 V c).leavesExact 2 t := by
  by_cases hc1 : condL0 (grid0.coords t)
  · rw [if_pos hc1]; unfold Dat.leavesExact; rw [liveO0 t hc1]; exact .rfl
  · rw [if_neg hc1, Dat.leavesExact_idle (dat0 V c) 2 t (idleO0 t hc1) (noFlushO0 t hc1)]
    iintro H; iexists d; iexact H

theorem sound_body0 (c : Dev nD) (t : Fin cfg0.N) :
    iprop(Phi0 V c t.val (Nat.le_of_lt t.isLt) ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop(Phi0 V c (t.val + 1) t.isLt ∗ (dat0 V c).owesAt () t.castSucc
        ∗ owns (c : Thread nD τ) (st0_0 t) fullShare (iblk0 V c 0 t) ∗ owns (c : Thread nD τ) (st0_1 t) fullShare (iblk0 V c 1 t)
        ∗ (dat0 V c).leavesExact 2 t)) := by
  unfold bodyAt0 Phi0 rest0
  simp only [beforeS0, beforeW0]
  iintro ⟨⟨%s, %hs, ⟨HS, HR⟩, Hg⟩, Ho, ⟨%d0, H0⟩, ⟨%d1, H1⟩, ⟨%d2, H2⟩⟩
  iapply (kernel0 c Set.univ (grid0.coords t) _ _ _ _ _ _ _ _
    (fun hz hl => by have := (hcondZ0 t).mp hz; have := (hcondL0 t).mp hl; omega) (iblk0 V c 0 t) (iblk0 V c 1 t) ((dat0 V c).before 2 t d2) s _)
  iframe H0 H1 H2 HS
  rw [acc0_step V c t s hs]
  iintro ⟨H0, H1, H2, HS⟩
  ihave H2 := leavesO0 V c t d2 $$ H2
  iframe Ho H0 H1 H2
  iexists acc0 V c t.val t.isLt; iframe
  ipureintro; exact fun _ => rfl

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [PhiA_eq0, show (dat0 V c).Φ 0 = Phi0 V c 0 (Nat.zero_le _) from rfl]; unfold Phi0 rest0
  iintro ⟨⟨⟨%d, HS⟩, HR⟩, Hg⟩; iexists d; iframe; ipureintro; exact fun h => absurd rfl h

theorem hout0 (c : Dev nD) : (dat0 V c).Φ (Fin.last cfg0.N) ⊢ Pipeline.ΦA spec0 c := by
  rw [PhiA_eq0, show (dat0 V c).Φ (Fin.last cfg0.N) = Phi0 V c cfg0.N (Nat.le_refl _) from rfl]; unfold Phi0 rest0
  iintro ⟨%s, -, ⟨HS, HR⟩, Hg⟩; iframe HR Hg; iexists s; iexact HS

end Cert.Kernel.Fr

end
-- ==== Proof.K.RegAcc1.lean ====
import proofs.«421506_j68049461838612_3_alg».proof.Proof.K.RegAcc0

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A grid point of region 0 with the same rating as a grid point of region 1. -/
def toG0 (i : grid1.Coords) : grid0.Coords := fun a => match a with
  | ⟨0, _⟩ => ⟨0, (by decide : 0 < 10)⟩
  | ⟨1, _⟩ => ⟨(i 1).val, (i 1).isLt⟩

abbrev condZ1 (i : grid1.Coords) : Prop := condZ0 (toG0 i)
abbrev condL1 (i : grid1.Coords) : Prop := condL0 (toG0 i)

/-- Region 1 runs region 0's kernel function, which reads of the grid point only its rating. -/
theorem cc1_eq_cc0 (i : grid1.Coords)
    (arg2 : Memref sig .tc .vmem S1x5000x64 .f32) (harg2 : arg2.IsWhole) (arg3 : Memref sig .tc .vmem S1x64x64 .f32) (harg3 : arg3.IsWhole)
    (arg4 : Memref sig .tc .vmem S5000x64 .f32) (harg4 : arg4.IsWhole) (arg5 : Memref sig .tc .vmem S5000x64 .f32) (harg5 : arg5.IsWhole) :
    cc1__relation_combine_kernel (F := F) i arg2 harg2 arg3 harg3 arg4 harg4 arg5 harg5
      = cc0__relation_combine_kernel (toG0 i) arg2 harg2 arg3 harg3 arg4 harg4 arg5 harg5 := by
  simp only [cc1__relation_combine_kernel_eq_skeleton, cc0__relation_combine_kernel_eq_skeleton]
  unfold cc1__relation_combine_kernel_skel cc0__relation_combine_kernel_skel
  rfl

/-- The body's two tests pick out a row block's first and last rating. -/
theorem hcondZ1 : ∀ t : Fin cfg1.N, condZ1 (grid1.coords t) ↔ t.val % 6 = 0 :=
  (by decide +kernel : ∀ t : Fin grid1.N, condZ1 (grid1.coords t) ↔ t.val % 6 = 0)
theorem hcondL1 : ∀ t : Fin cfg1.N, condL1 (grid1.coords t) ↔ t.val % 6 = 5 :=
  (by decide +kernel : ∀ t : Fin grid1.N, condL1 (grid1.coords t) ↔ t.val % 6 = 5)

theorem idleO1 : ∀ t : Fin cfg1.N, ¬condL1 (grid1.coords t) → cfg1.idle 2 (grid1.coords t) = true := by decide +kernel
theorem noFlushO1 : ∀ t : Fin cfg1.N, ¬condL1 (grid1.coords t) → (cfg1.win 2).flush t = false := by decide +kernel
theorem liveO1 : ∀ t : Fin cfg1.N, condL1 (grid1.coords t) → cfg1.idle 2 (grid1.coords t) = false := by decide +kernel

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after grid position `n`: restarted at a row block's first rating, else carried on. -/
def acc1 (c : Dev nD) : (n : ℕ) → n < cfg1.N → Vec F S5000x64 .f32
  | 0, hn => k1_pay2 (iblk1 V c 0 ⟨0, hn⟩) (iblk1 V c 1 ⟨0, hn⟩) (k1_pay1 (F := F))
  | n + 1, hn =>
    if (n + 1) % 6 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 6 = 0) :
    acc1 V c t.val t.isLt = k1_pay2 (iblk1 V c 0 t) (iblk1 V c 1 t) (k1_pay1 (F := F)) := by
  obtain ⟨_ | n, hn⟩ := t
  · rfl
  · exact if_pos h0

theorem acc1_next (c : Dev nD) (t : Fin cfg1.N) (h0 : ¬t.val % 6 = 0) :
    acc1 V c t.val t.isLt = k1_pay2 (iblk1 V c 0 t) (iblk1 V c 1 t) (acc1 V c (t.val - 1) (Nat.lt_of_le_of_lt (Nat.sub_le _ _) t.isLt)) := by
  obtain ⟨_ | n, hn⟩ := t
  · exact absurd (Nat.zero_mod _) h0
  · exact if_neg h0

/-- The same step in the shape the body's triple leaves it, over whatever the scratch held before. -/
theorem acc1_step (c : Dev nD) (t : Fin cfg1.N) (s : Vec F S5000x64 .f32)
    (hs : ∀ h : t.val ≠ 0, s = acc1 V c (t.val - 1) (Nat.lt_of_le_of_lt (Nat.sub_le _ _) t.isLt)) :
    k0_pay2 (iblk1 V c 0 t) (iblk1 V c 1 t) (if condZ1 (grid1.coords t) then k0_pay1 (F := F) else s) = acc1 V c t.val t.isLt := by
  show k1_pay2 (iblk1 V c 0 t) (iblk1 V c 1 t) (if condZ1 (grid1.coords t) then k1_pay1 (F := F) else s) = _
  by_cases h0 : t.val % 6 = 0
  · rw [acc1_first V c t h0, if_pos ((hcondZ1 t).mpr h0)]
  · rw [acc1_next V c t h0, if_neg (mt (hcondZ1 t).mp h0), hs fun h => h0 (by rw [h])]

/-- The accumulator's buffer at contents `s`, beside the region's other resources. -/
abbrev rest1 (c : Dev nD) (s : Vec F S5000x64 .f32) : sProp 𝕄 :=
  iprop(iprop(owns (c : Thread nD τ) (Memref.whole cc1_scratch0) fullShare s ∗ Pipeline.scopedRestBut (Ix := Unit) (Name := ℕ) (U := UR sig nD τ) (Lvl := ℕ) (Val := Elt F) spec1 c [cc1_scratch0]) ∗ (∃ r, prngReg c r))

theorem PhiA_eq1 (c : Dev nD) : (Pipeline.ΦA spec1 c : sProp 𝕄)
    = iprop(iprop(iprop(∃ d, owns (c : Thread nD τ) (Memref.whole cc1_scratch0) fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [owns_whole]; try rfl

/-- The invariant before position `n`: past the first point the scratch holds what the position before left. -/
def Phi1 (c : Dev nD) (n : ℕ) (hn : n ≤ cfg1.N) : sProp 𝕄 :=
  iprop(∃ s, ⌜∀ h : n ≠ 0, s = acc1 V c (n - 1) (by omega)⌝ ∗ rest1 c s)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := rfl
theorem afterO1 (c : Dev nD) (t : Fin cfg1.N) : (dat1 V c).after 2 t = acc1 V c t.val t.isLt := rfl

theorem beforeS1 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem beforeW1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

/-- The output block is handed on as found off a last rating, and holds the accumulator at one. -/
theorem leavesO1 (c : Dev nD) (t : Fin cfg1.N) (d) :
    owns (c : Thread nD τ) (st1_2 t) fullShare (if condL1 (grid1.coords t) then acc1 V c t.val t.isLt else (dat1 V c).before 2 t d) ⊢ (dat1 V c).leavesExact 2 t := by
  by_cases hc1 : condL1 (grid1.coords t)
  · rw [if_pos hc1]; unfold Dat.leavesExact; rw [liveO1 t hc1]; exact .rfl
  · rw [if_neg hc1, Dat.leavesExact_idle (dat1 V c) 2 t (idleO1 t hc1) (noFlushO1 t hc1)]
    iintro H; iexists d; iexact H

theorem sound_body1 (c : Dev nD) (t : Fin cfg1.N) :
    iprop(Phi1 V c t.val (Nat.le_of_lt t.isLt) ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) (fun _ =>
      iprop(Phi1 V c (t.val + 1) t.isLt ∗ (dat1 V c).owesAt () t.castSucc
        ∗ owns (c : Thread nD τ) (st1_0 t) fullShare (iblk1 V c 0 t) ∗ owns (c : Thread nD τ) (st1_1 t) fullShare (iblk1 V c 1 t)
        ∗ (dat1 V c).leavesExact 2 t)) := by
  unfold bodyAt1 Phi1 rest1
  rw [cc1_eq_cc0]
  simp only [beforeS1, beforeW1]
  iintro ⟨⟨%s, %hs, ⟨HS, HR⟩, Hg⟩, Ho, ⟨%d0, H0⟩, ⟨%d1, H1⟩, ⟨%d2, H2⟩⟩
  iapply (kernel0 c Set.univ (toG0 (grid1.coords t)) _ _ _ _ _ _ _ _
    (fun hz hl => by have := (hcondZ1 t).mp hz; have := (hcondL1 t).mp hl; omega) (iblk1 V c 0 t) (iblk1 V c 1 t) ((dat1 V c).before 2 t d2) s _)
  iframe H0 H1 H2 HS
  rw [acc1_step V c t s hs]
  iintro ⟨H0, H1, H2, HS⟩
  ihave H2 := leavesO1 V c t d2 $$ H2
  iframe Ho H0 H1 H2
  iexists acc1 V c t.val t.isLt; iframe
  ipureintro; exact fun _ => rfl

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA_eq1, show (dat1 V c).Φ 0 = Phi1 V c 0 (Nat.zero_le _) from rfl]; unfold Phi1 rest1
  iintro ⟨⟨⟨%d, HS⟩, HR⟩, Hg⟩; iexists d; iframe; ipureintro; exact fun h => absurd rfl h

theorem hout1 (c : Dev nD) : (dat1 V c).Φ (Fin.last cfg1.N) ⊢ Pipeline.ΦA spec1 c := by
  rw [PhiA_eq1, show (dat1 V c).Φ (Fin.last cfg1.N) = Phi1 V c cfg1.N (Nat.le_refl _) from rfl]; unfold Phi1 rest1
  iintro ⟨%s, -, ⟨HS, HR⟩, Hg⟩; iframe HR Hg; iexists s; iexact HS

end Cert.Kernel.Fr

end
-- ==== Proof.K.RegProj2.lean ====
import proofs.«421506_j68049461838612_3_alg».proof.Proof.Gen.Kernel.Launch
import proofs.«421506_j68049461838612_3_alg».proof.Proof.Gen.Kernel.Skeleton
import proofs.«421506_j68049461838612_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S128x64 := Rect.unit (s := S128x64) ![0, 0] S128x64.size inb_S128x64_S128x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-- The body's one store, of the whole output block, as a function of the six loaded blocks. -/
def out2 (x0 x1 : Vec F S5000x64 .f32) (x2 : Vec F S128x64 .f32) (x3 : Vec F S1x64 .f32) (x4 : Vec F S64x64 .f32) (x5 : Vec F S1x64 .f32) : Vec F S5000x64 .f32 :=
  View.canon [⟨r2_0, k2_pay1 (View.ld x0 r2_0) (View.ld x1 r2_0) (View.ld x2 r2_1) (View.ld x3 r2_2) (View.ld x4 r2_3) (View.ld x5 r2_2)⟩]

theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (x0 x1 : Vec F S5000x64 .f32) (x2 : Vec F S128x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2 x0 x1 x2 x3 x4 x5)) -∗ K ⟨⟩))
      ⊢ wp frame (wpE (defs₀ (F := F)) Variants.none c none) E
          (cc2__combine_proj_kernel i arg1 harg1 arg2 harg2 arg3 harg3 arg4 harg4 arg5 harg5 arg6 harg6 arg7 harg7) K := by
  simp only [cc2__combine_proj_kernel_eq_skeleton]; unfold cc2__combine_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_6 (c : Dev nD) (t : Fin cfg2.N) : (dat2 V c).after 6 t
    = out2 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

/-- At any point the body finds the six input blocks, stores the projection, and passes everything else through. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t)
        ∗ owns (c : Thread nD τ) (st2_6 t) fullShare ((dat2 V c).after 6 t))) := by
  unfold bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro ⟨H0, H1, H2, H3, H4, H5, H6⟩
  dsimp only [dat2]
  iframe

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.RegProj3.lean ====
import proofs.«421506_j68049461838612_3_alg».proof.Proof.K.RegProj2

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3 (x0 x1 : Vec F S5000x64 .f32) (x2 : Vec F S128x64 .f32) (x3 : Vec F S1x64 .f32) (x4 : Vec F S64x64 .f32) (x5 : Vec F S1x64 .f32) : Vec F S5000x64 .f32 :=
  View.canon [⟨r2_0, k3_pay1 (View.ld x0 r2_0) (View.ld x1 r2_0) (View.ld x2 r2_1) (View.ld x3 r2_2) (View.ld x4 r2_3) (View.ld x5 r2_2)⟩]

/-- Region 3 runs region 2's kernel function: the two bodies are one program, whatever the grid point. -/
theorem cc3_eq_cc2 (i3 : grid3.Coords) (i2 : grid2.Coords)
    (arg1 : Memref sig .tc .vmem S5000x64 .f32) (harg1 : arg1.IsWhole) (arg2 : Memref sig .tc .vmem S5000x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole) :
    cc3__combine_proj_kernel (F := F) i3 arg1 harg1 arg2 harg2 arg3 harg3 arg4 harg4 arg5 harg5 arg6 harg6 arg7 harg7
      = cc2__combine_proj_kernel i2 arg1 harg1 arg2 harg2 arg3 harg3 arg4 harg4 arg5 harg5 arg6 harg6 arg7 harg7 := by
  simp only [cc3__combine_proj_kernel_eq_skeleton, cc2__combine_proj_kernel_eq_skeleton]
  unfold cc3__combine_proj_kernel_skel cc2__combine_proj_kernel_skel
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by dsimp only [dat3]

theorem after3_6 (c : Dev nD) (t : Fin cfg3.N) : (dat3 V c).after 6 t
    = out3 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d))
      ∗ (∃ d, owns (c : Thread nD τ) (st3_6 t) fullShare ((dat3 V c).before 6 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)
        ∗ owns (c : Thread nD τ) (st3_3 t) fullShare ((dat3 V c).after 3 t)
        ∗ owns (c : Thread nD τ) (st3_4 t) fullShare ((dat3 V c).after 4 t)
        ∗ owns (c : Thread nD τ) (st3_5 t) fullShare ((dat3 V c).after 5 t)
        ∗ owns (c : Thread nD τ) (st3_6 t) fullShare ((dat3 V c).after 6 t))) := by
  unfold bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    cc3_eq_cc2 _ (grid2.coords ⟨0, by decide⟩)]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  dsimp only [dat3]
  iframe
  iexact H6

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Run.lean ====
import proofs.«421506_j68049461838612_3_alg».proof.Proof.Gen.Kernel.Launch
import proofs.«421506_j68049461838612_3_alg».proof.Proof.Gen.Kernel.Skeleton
import proofs.«421506_j68049461838612_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«421506_j68049461838612_3_alg».proof.Proof.K.RegAcc0
import proofs.«421506_j68049461838612_3_alg».proof.Proof.K.RegAcc1
import proofs.«421506_j68049461838612_3_alg».proof.Proof.K.RegProj2
import proofs.«421506_j68049461838612_3_alg».proof.Proof.K.RegProj3

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem not_arr {gr W : Nat} {win : Fin W → Pipeline.WinSpec sig gr} {b : Ref sig .tc} (hb : b ∉ Finset.univ.image (Pipeline.arrRef win)) :
    ∀ w, Pipeline.arrRef win w ≠ b := fun w e => hb (Finset.mem_image.mpr ⟨w, Finset.mem_univ _, e⟩)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b

abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b

abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxRecDepth 65536 in
set_option maxHeartbeats 4000000 in
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m ρ c) ∗ ∃ r, prngReg c r)

theorem toΦA {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ Pipeline.ΦA win c := by
  unfold Pipeline.ΦA; iintro ⟨Hp, -, Hr⟩; iframe

theorem ofΦA {gr W : Nat} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA; iintro ⟨Hr, Hp⟩; iframe

/-- One kernel region as a step of the program's run, from the buffer contents at its entry to those at its exit. -/
def regOf (p : Fin 4) (lf : Pipeline.LaunchFacts (nD := nD) (τ := τ) cfgs p)
    (hbody : ∀ c, Pipeline.BodyObligationLoose (pdats m ρ p c) defs₀ 𝒱₀ () Set.univ) (W W' : Dev nD → Valuation τ sig (Elt F))
    (post : Dev nD → sProp 𝕄)
    (hpost : ∀ c : Dev nD, iprop(StableHlo.held (c : Thread nD τ) (Pipeline.ucRefs τ sig) (W' c) ∗ R c) ⊢ post c)
    (hq : ∀ c w, (pdats m ρ p c).q w = fullShare) (hK : (pcfgs (F := F) p).pre.K = 0)
    (ho : ∀ c t, (pdats m ρ p c).owed t = 0) (hr : ∀ c t, (pdats m ρ p c).recorded t = Set.univ)
    (hA : ∀ c w, (pdats m ρ p c).A w = W c (Pipeline.arrRef (cfgs p).spec w))
    (hF : ∀ c w, (pdats m ρ p c).arrAt w (cfgs p).N = W' c (Pipeline.arrRef (cfgs p).spec w))
    (hrest : ∀ c b, b ∉ Finset.univ.image (Pipeline.arrRef (cfgs p).spec) → W' c (Proc.devRef .tc b) = W c (Proc.devRef .tc b))
    (hin : ∀ c, Pipeline.ΦA (cfgs p).spec c ⊢ (pdats m ρ p c).Φ 0)
    (hout : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p ho
  pre c := iprop(StableHlo.held (c : Thread nD τ) (Pipeline.ucRefs τ sig) (W c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    haveI : IsEmpty (Fin (pcfgs (F := F) p).pre.K) := by rw [hK]; infer_instance
    rw [Pipeline.ownSems0_none]
    iintro ⟨⟨Hub, Hp, HO⟩, -, -⟩
    ihave H := hsplit $$ Hub
    icases H with ⟨Ha, Hrest⟩
    imodintro
    iframe Ha Hp Hrest
    isplitr; · unfold Pipeline.prefHeld; rw [Finset.univ_eq_empty, BI.bigSep_empty]; iempintro
    unfold Pipeline.Dat.owesAt Pipeline.owesWithin
    rw [ho]
    icases HO with ⟨%Wo, HO⟩; iexists Wo; isplitr; · ipureintro; exact fun _ _ => Or.inl (by rw [hr]; trivial)
    iexact HO
  hin c := (toΦA _ c _).trans (hin c)
  hout c := by rw [Pipeline.ownSems0_none]; exact (hout c).trans (ofΦA _ c)
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => W c b) (fun b => W' c b)
      ((pdats m ρ p c).arrAt · _) (hF c) (hrest c)
    rw [Pipeline.unscopedBufs_held] at hjoin
    iintro ⟨Ha, HO, HY, Hrest⟩
    imodintro
    iapply hpost
    isplitl [Ha Hrest]
    · iapply hjoin; isplitl [Ha] <;> iassumption
    isplitl [HY]; · iexact HY
    unfold Pipeline.Dat.owesAt Pipeline.owesWithin
    rw [ho]
    icases HO with ⟨%Wo, -, HO⟩; iexists Wo; iexact HO

def reg0 : Pipeline.RegionSeg (pcfgs (F := F)) adm (pdats m ρ) () defs₀ 𝒱₀ L lv 0 :=
  regOf m ρ 0 launch0 (fun c => (body_obligation0 (V1 m ρ) c).loose) (W1 m ρ) (W2 m ρ)
    (fun c => iprop(StableHlo.held (c : Thread nD τ) (Pipeline.ucRefs τ sig) (W2 m ρ c) ∗ R c)) (fun _ => .rfl)
    (fun _ _ => rfl) rfl (fun _ _ => rfl) (fun _ _ => rfl) (fun _ _ => rfl) (fun c w => (W2_arr m ρ c w).symm)
    (fun c b hb => W2_of_ne m ρ c b (not_arr hb)) (hin0 (V1 m ρ)) (hout0 (V1 m ρ))

def reg1 : Pipeline.RegionSeg (pcfgs (F := F)) adm (pdats m ρ) () defs₀ 𝒱₀ L lv 1 :=
  regOf m ρ 1 launch1 (fun c => (body_obligation1 (V2 m ρ) c).loose) (W2 m ρ) (W3 m ρ)
    (fun c => iprop(StableHlo.held (c : Thread nD τ) (Pipeline.ucRefs τ sig) (W3 m ρ c) ∗ R c)) (fun _ => .rfl)
    (fun _ _ => rfl) rfl (fun _ _ => rfl) (fun _ _ => rfl) (fun _ _ => rfl) (fun c w => (W3_arr m ρ c w).symm)
    (fun c b hb => W3_of_ne m ρ c b (not_arr hb)) (hin1 (V2 m ρ)) (hout1 (V2 m ρ))

def reg2 : Pipeline.RegionSeg (pcfgs (F := F)) adm (pdats m ρ) () defs₀ 𝒱₀ L lv 2 :=
  regOf m ρ 2 launch2 (fun c => (body_obligation2 (V4 m ρ) c).loose) (W4 m ρ) (W5 m ρ)
    (fun c => iprop(StableHlo.held (c : Thread nD τ) (Pipeline.ucRefs τ sig) (W5 m ρ c) ∗ R c)) (fun _ => .rfl)
    (fun _ _ => rfl) rfl (fun _ _ => rfl) (fun _ _ => rfl) (fun _ _ => rfl) (fun c w => (W5_arr m ρ c w).symm)
    (fun c b hb => W5_of_ne m ρ c b (not_arr hb)) (fun _ => .rfl) (fun _ => .rfl)

def reg3 : Pipeline.RegionSeg (pcfgs (F := F)) adm (pdats m ρ) () defs₀ 𝒱₀ L lv 3 :=
  regOf m ρ 3 launch3 (fun c => (body_obligation3 (V6 m ρ) c).loose) (W6 m ρ) (W7 m ρ)
    (fun c => iprop(Tₙ m ρ c ∗ ∃ W, owes (c : Thread nD τ) (0 : CellTallies nD τ sig Unit) W)) (fun c => by
      iintro ⟨Hh, Hp, HO⟩
      isplitl [Hh Hp]; · isplitl [Hh] <;> iassumption
      iexact HO)
    (fun _ _ => rfl) rfl (fun _ _ => rfl) (fun _ _ => rfl) (fun _ _ => rfl) (fun c w => (W7_arr m ρ c w).symm)
    (fun c b hb => W7_of_ne m ρ c b (not_arr hb)) (fun _ => .rfl) (fun _ => .rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
set_option maxRecDepth 65536 in
theorem main_run (c : Dev nD) : main (F := F) c = Pipeline.Seg.run (segs m ρ) := (main_chain c).trans (by chain_rfl)

/-- The whole program, stretch by stretch and region by region: it ends, and every buffer holds the last step's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Fr

end
-- ==== Proof.K.Keep.lean ====
import proofs.«421506_j68049461838612_3_alg».proof.Proof.K.Run

noncomputable section

namespace Cert.Kernel.Fr

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

def mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

theorem mainArgs_low : ∀ b ∈ mainArgs, b.idx.val < 21 := by decide

theorem ne_of_low {y b : Ref sig .tc} (hy : 21 ≤ y.idx.val) (hb : b.idx.val < 21) : y ≠ b := fun e => by
  subst e; omega

/-- Every host operation and every region writes only buffers of index 21 or more; the arguments are the buffers below 21. -/
theorem after_low (ops : List (HloOp τ sig (Elt F))) (V : Valuation τ sig (Elt F))
    (h : ops.Forall fun op => ∃ y : Ref sig .tc, op.writes = {(Proc.devRef .tc y : DevRef τ sig)} ∧ 21 ≤ y.idx.val)
    (b : Ref sig .tc) (hb : b.idx.val < 21) :
    StableHlo.after ops V (Proc.devRef .tc b) = V (Proc.devRef .tc b) :=
  StableHlo.after_of_forall_not_mem ops V fun op hop hmem => by
    obtain ⟨y, hy, h21⟩ := (List.forall_iff_forall_mem.mp h) op hop
    rw [hy, Finset.mem_singleton] at hmem
    exact ne_of_low h21 hb (Proc.devRef_injective _ hmem).symm

set_option maxRecDepth 65536 in
set_option maxHeartbeats 4000000 in
theorem hostOps0_high : (hostOps0 : List (HloOp τ sig (Elt F))).Forall fun op =>
    ∃ y : Ref sig .tc, op.writes = {(Proc.devRef .tc y : DevRef τ sig)} ∧ 21 ≤ y.idx.val := by
  simp only [List.Forall]
  repeat' apply And.intro
  all_goals exact ⟨_, rfl, by decide⟩

theorem hostOps2_high : (hostOps2 : List (HloOp τ sig (Elt F))).Forall fun op =>
    ∃ y : Ref sig .tc, op.writes = {(Proc.devRef .tc y : DevRef τ sig)} ∧ 21 ≤ y.idx.val :=
  ⟨⟨_, rfl, by decide⟩, ⟨_, rfl, by decide⟩, ⟨_, rfl, by decide⟩, ⟨_, rfl, by decide⟩⟩

theorem hostOps3_high : (hostOps3 : List (HloOp τ sig (Elt F))).Forall fun op =>
    ∃ y : Ref sig .tc, op.writes = {(Proc.devRef .tc y : DevRef τ sig)} ∧ 21 ≤ y.idx.val :=
  ⟨⟨_, rfl, by decide⟩, ⟨_, rfl, by decide⟩, ⟨_, rfl, by decide⟩, ⟨_, rfl, by decide⟩⟩

theorem arr0_high : ∀ w, 21 ≤ (Pipeline.arrRef spec0 w).idx.val := by decide
theorem arr1_high : ∀ w, 21 ≤ (Pipeline.arrRef spec1 w).idx.val := by decide
theorem arr2_high : ∀ w, 21 ≤ (Pipeline.arrRef spec2 w).idx.val := by decide
theorem arr3_high : ∀ w, 21 ≤ (Pipeline.arrRef spec3 w).idx.val := by decide

theorem W3_low (c : Dev nD) (b : Ref sig .tc) (hb : b.idx.val < 21) :
    W3 m ρ c (Proc.devRef .tc b) = W0 m ρ c (Proc.devRef .tc b) :=
  calc W3 m ρ c (Proc.devRef .tc b)
    _ = W2 m ρ c (Proc.devRef .tc b) := W3_of_ne m ρ c b fun w => ne_of_low (arr1_high w) hb
    _ = W1 m ρ c (Proc.devRef .tc b) := W2_of_ne m ρ c b fun w => ne_of_low (arr0_high w) hb
    _ = W0 m ρ c (Proc.devRef .tc b) := after_low hostOps0 _ hostOps0_high b hb

theorem W5_low (c : Dev nD) (b : Ref sig .tc) (hb : b.idx.val < 21) :
    W5 m ρ c (Proc.devRef .tc b) = W0 m ρ c (Proc.devRef .tc b) :=
  calc W5 m ρ c (Proc.devRef .tc b)
    _ = W4 m ρ c (Proc.devRef .tc b) := W5_of_ne m ρ c b fun w => ne_of_low (arr2_high w) hb
    _ = W3 m ρ c (Proc.devRef .tc b) := after_low hostOps2 _ hostOps2_high b hb
    _ = W0 m ρ c (Proc.devRef .tc b) := W3_low m ρ c b hb

theorem W7_low (c : Dev nD) (b : Ref sig .tc) (hb : b.idx.val < 21) :
    W7 m ρ c (Proc.devRef .tc b) = W0 m ρ c (Proc.devRef .tc b) :=
  calc W7 m ρ c (Proc.devRef .tc b)
    _ = W6 m ρ c (Proc.devRef .tc b) := W7_of_ne m ρ c b fun w => ne_of_low (arr3_high w) hb
    _ = W5 m ρ c (Proc.devRef .tc b) := after_low hostOps3 _ hostOps3_high b hb
    _ = W0 m ρ c (Proc.devRef .tc b) := W5_low m ρ c b hb

theorem W3_arg (c : Dev nD) (b : Ref sig .tc) (hb : b ∈ mainArgs) :
    W3 m ρ c (Proc.devRef .tc b) = W0 m ρ c (Proc.devRef .tc b) := W3_low m ρ c b (mainArgs_low b hb)
theorem W5_arg (c : Dev nD) (b : Ref sig .tc) (hb : b ∈ mainArgs) :
    W5 m ρ c (Proc.devRef .tc b) = W0 m ρ c (Proc.devRef .tc b) := W5_low m ρ c b (mainArgs_low b hb)

def wr2 : List (Ref sig .tc) := [main_v87, main_v88, main_v89, main_v90]
def wr3 : List (Ref sig .tc) := [main_v92, main_v93, main_v94, main_v95]

theorem sub_of_mem {y : Ref sig .tc} {l : List (Ref sig .tc)} (h : y ∈ l) :
    ({(Proc.devRef .tc y : DevRef τ sig)} : Finset (DevRef τ sig)) ⊆ (l.map (Proc.devRef (τ := τ) .tc)).toFinset :=
  Finset.singleton_subset_iff.2 (List.mem_toFinset.2 (List.mem_map.2 ⟨y, h, rfl⟩))

theorem hostOps2_writes : (hostOps2 : List (HloOp τ sig (Elt F))).Forall fun op =>
    op.writes ⊆ (wr2.map (Proc.devRef (τ := τ) .tc)).toFinset :=
  ⟨sub_of_mem (by decide), sub_of_mem (by decide), sub_of_mem (by decide), sub_of_mem (by decide)⟩
theorem hostOps3_writes : (hostOps3 : List (HloOp τ sig (Elt F))).Forall fun op =>
    op.writes ⊆ (wr3.map (Proc.devRef (τ := τ) .tc)).toFinset :=
  ⟨sub_of_mem (by decide), sub_of_mem (by decide), sub_of_mem (by decide), sub_of_mem (by decide)⟩

/-- Each result, and each region's input, traced back to the step that last wrote it. -/
theorem W7_v91 (c : Dev nD) : W7 m ρ c (Proc.devRef .tc main_v91) = (dat2 (V4 m ρ) c).arrAt 6 cfg2.N :=
  calc W7 m ρ c (Proc.devRef .tc main_v91)
    _ = W6 m ρ c (Proc.devRef .tc main_v91) := W7_of_ne m ρ c main_v91 (by decide)
    _ = W5 m ρ c (Proc.devRef .tc main_v91) := StableHlo.after_of_writes_sub hostOps3 _ hostOps3_writes (by decide)
    _ = (dat2 (V4 m ρ) c).arrAt 6 cfg2.N := W5_arr m ρ c 6

theorem W7_v96 (c : Dev nD) : W7 m ρ c (Proc.devRef .tc main_v96) = (dat3 (V6 m ρ) c).arrAt 6 cfg3.N :=
  W7_arr m ρ c 6

theorem V4_v29 (c : Dev nD) : V4 m ρ c main_v29 = W1 m ρ c (Proc.devRef .tc main_v29) :=
  calc V4 m ρ c main_v29
    _ = W3 m ρ c (Proc.devRef .tc main_v29) := StableHlo.after_of_writes_sub hostOps2 _ hostOps2_writes (by decide)
    _ = W2 m ρ c (Proc.devRef .tc main_v29) := W3_of_ne m ρ c main_v29 (by decide)
    _ = W1 m ρ c (Proc.devRef .tc main_v29) := W2_of_ne m ρ c main_v29 (by decide)

theorem V4_v85 (c : Dev nD) : V4 m ρ c main_v85 = (dat0 (V1 m ρ) c).arrAt 2 cfg0.N :=
  calc V4 m ρ c main_v85
    _ = W3 m ρ c (Proc.devRef .tc main_v85) := StableHlo.after_of_writes_sub hostOps2 _ hostOps2_writes (by decide)
    _ = W2 m ρ c (Proc.devRef .tc main_v85) := W3_of_ne m ρ c main_v85 (by decide)
    _ = (dat0 (V1 m ρ) c).arrAt 2 cfg0.N := W2_arr m ρ c 2

theorem V6_v14 (c : Dev nD) : V6 m ρ c main_v14 = W1 m ρ c (Proc.devRef .tc main_v14) :=
  calc V6 m ρ c main_v14
    _ = W5 m ρ c (Proc.devRef .tc main_v14) := StableHlo.after_of_writes_sub hostOps3 _ hostOps3_writes (by decide)
    _ = W4 m ρ c (Proc.devRef .tc main_v14) := W5_of_ne m ρ c main_v14 (by decide)
    _ = W3 m ρ c (Proc.devRef .tc main_v14) := StableHlo.after_of_writes_sub hostOps2 _ hostOps2_writes (by decide)
    _ = W2 m ρ c (Proc.devRef .tc main_v14) := W3_of_ne m ρ c main_v14 (by decide)
    _ = W1 m ρ c (Proc.devRef .tc main_v14) := W2_of_ne m ρ c main_v14 (by decide)

theorem V6_v86 (c : Dev nD) : V6 m ρ c main_v86 = (dat1 (V2 m ρ) c).arrAt 2 cfg1.N :=
  calc V6 m ρ c main_v86
    _ = W5 m ρ c (Proc.devRef .tc main_v86) := StableHlo.after_of_writes_sub hostOps3 _ hostOps3_writes (by decide)
    _ = W4 m ρ c (Proc.devRef .tc main_v86) := W5_of_ne m ρ c main_v86 (by decide)
    _ = W3 m ρ c (Proc.devRef .tc main_v86) := StableHlo.after_of_writes_sub hostOps2 _ hostOps2_writes (by decide)
    _ = (dat1 (V2 m ρ) c).arrAt 2 cfg1.N := W3_arr m ρ c 2

theorem V2_v82 (c : Dev nD) : V2 m ρ c main_v82 = W1 m ρ c (Proc.devRef .tc main_v82) :=
  W2_of_ne m ρ c main_v82 (by decide)
theorem V2_v84 (c : Dev nD) : V2 m ρ c main_v84 = W1 m ρ c (Proc.devRef .tc main_v84) :=
  W2_of_ne m ρ c main_v84 (by decide)

end Cert.Kernel.Fr

end
-- ==== Proof.KI.RegAcc0.lean ====
import proofs.«421506_j68049461838612_3_alg».proof.Proof.Gen.KernelIdeal.Launch
import proofs.«421506_j68049461838612_3_alg».proof.Proof.Gen.KernelIdeal.Skeleton
import proofs.«421506_j68049461838612_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev condZ0 (i : grid0.Coords) : Prop := (Scalar.cmpi .ne (Scalar.extui (Scalar.cmpi .eq (BitVec.ofNat 32 (i 1).val) 0#32)) 0#32) = 1#1
abbrev condL0 (i : grid0.Coords) : Prop := k0_cond2 i = 1#1

/-- The body's two tests pick out a row block's first and last rating. -/
theorem hcondZ0 : ∀ t : Fin cfg0.N, condZ0 (grid0.coords t) ↔ t.val % 6 = 0 :=
  (by decide +kernel : ∀ t : Fin grid0.N, condZ0 (grid0.coords t) ↔ t.val % 6 = 0)
theorem hcondL0 : ∀ t : Fin cfg0.N, condL0 (grid0.coords t) ↔ t.val % 6 = 5 :=
  (by decide +kernel : ∀ t : Fin grid0.N, condL0 (grid0.coords t) ↔ t.val % 6 = 5)

theorem zerosTwo0 : (![0, 0] : Fin 2 → Nat) = fun _ => 0 := funext fun a => by fin_cases a <;> rfl
theorem zerosThree0 : (![0, 0, 0] : Fin 3 → Nat) = fun _ => 0 := funext fun a => by fin_cases a <;> rfl

/-- One triple for every point: the accumulator restarts from zero at a first rating, takes this rating's product,
    and is copied to the output block at a last rating. -/
theorem kernel0 (c : Dev nD) (E : Set ℕ) (i : grid0.Coords)
    (arg2 : Memref sig .tc .vmem S1x5000x64 .f32) (harg2 : arg2.IsWhole) (arg3 : Memref sig .tc .vmem S1x64x64 .f32) (harg3 : arg3.IsWhole)
    (arg4 : Memref sig .tc .vmem S5000x64 .f32) (harg4 : arg4.IsWhole) (arg5 : Memref sig .tc .vmem S5000x64 .f32) (harg5 : arg5.IsWhole)
    (hzl : condZ0 i → ¬condL0 i)
    (x0 : Vec F S1x5000x64 .f32) (x1 : Vec F S1x64x64 .f32) (o s : Vec F S5000x64 .f32) (K : PUnit → sProp 𝕄) :
    iprop(owns (c : Thread nD τ) arg2 fullShare x0 ∗ owns (c : Thread nD τ) arg3 fullShare x1 ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare (if condL0 i then k0_pay2 x0 x1 (if condZ0 i then k0_pay1 (F := F) else s) else o)
            ∗ owns (c : Thread nD τ) arg5 fullShare (k0_pay2 x0 x1 (if condZ0 i then k0_pay1 (F := F) else s))) -∗ K ⟨⟩))
      ⊢ wp frame (wpE (defs₀ (F := F)) Variants.none c none) E (cc0__relation_combine_kernel i arg2 harg2 arg3 harg3 arg4 harg4 arg5 harg5) K := by
  have hrd : ∀ (p : Vec F S5000x64 .f32) (l : List (View.Piece (Elt F) S5000x64 .f32)) y,
      ∃ pc ∈ (⟨Rect.unit (s := S5000x64) ![0, 0] S5000x64.size inb_S5000x64_S5000x64_0_0, p⟩ :: l), y ∈ pc.1.set :=
    fun _ _ y => ⟨_, List.mem_cons_self, View.mem_set_unit_zero zerosTwo0 inb_S5000x64_S5000x64_0_0 y⟩
  by_cases hc0 : condZ0 i <;> by_cases hc1 : condL0 i
  · exact absurd hc1 (hzl hc0)
  all_goals
    first | rw [if_pos hc0] | rw [if_neg hc0]
    first | rw [if_pos hc1] | rw [if_neg hc1]
    simp only [cc0__relation_combine_kernel_eq_skeleton]; unfold cc0__relation_combine_kernel_skel
    unfold owns
    iintro ⟨⟨%f0, %hf0, H0⟩, ⟨%f1, %hf1, H1⟩, ⟨%fo, %hfo, H2⟩, ⟨%fs, %hfs, HS⟩, Hk⟩
    subst hf0 hf1 hfo hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2] <;>
    · iexists _; isplitr
      swap; · iassumption
      ipureintro
      sl_unfold_words
      first
      | rfl
      | rw [View.read_writes_eq_canon _ _ _ (hrd _ _), View.canon_cons_unit_zero (S := S5000x64) zerosTwo0]
        simp only [View.readAt_eq_ld, View.ld_unit_zero (S := S1x5000x64) zerosThree0, View.ld_unit_zero (S := S1x64x64) zerosThree0,
          View.ld_unit_zero (S := S5000x64) zerosTwo0, View.readCov_unit_zero (S := S5000x64) _ zerosTwo0]

theorem idleO0 : ∀ t : Fin cfg0.N, ¬condL0 (grid0.coords t) → cfg0.idle 2 (grid0.coords t) = true := by decide +kernel
theorem noFlushO0 : ∀ t : Fin cfg0.N, ¬condL0 (grid0.coords t) → (cfg0.win 2).flush t = false := by decide +kernel
theorem liveO0 : ∀ t : Fin cfg0.N, condL0 (grid0.coords t) → cfg0.idle 2 (grid0.coords t) = false := by decide +kernel

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after grid position `n`: restarted at a row block's first rating, else carried on. -/
def acc0 (c : Dev nD) : (n : ℕ) → n < cfg0.N → Vec F S5000x64 .f32
  | 0, hn => k0_pay2 (iblk0 V c 0 ⟨0, hn⟩) (iblk0 V c 1 ⟨0, hn⟩) (k0_pay1 (F := F))
  | n + 1, hn =>
    if (n + 1) % 6 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h0 : t.val % 6 = 0) :
    acc0 V c t.val t.isLt = k0_pay2 (iblk0 V c 0 t) (iblk0 V c 1 t) (k0_pay1 (F := F)) := by
  obtain ⟨_ | n, hn⟩ := t
  · rfl
  · exact if_pos h0

theorem acc0_next (c : Dev nD) (t : Fin cfg0.N) (h0 : ¬t.val % 6 = 0) :
    acc0 V c t.val t.isLt = k0_pay2 (iblk0 V c 0 t) (iblk0 V c 1 t) (acc0 V c (t.val - 1) (Nat.lt_of_le_of_lt (Nat.sub_le _ _) t.isLt)) := by
  obtain ⟨_ | n, hn⟩ := t
  · exact absurd (Nat.zero_mod _) h0
  · exact if_neg h0

/-- The same step in the shape the body's triple leaves it, over whatever the scratch held before. -/
theorem acc0_step (c : Dev nD) (t : Fin cfg0.N) (s : Vec F S5000x64 .f32)
    (hs : ∀ h : t.val ≠ 0, s = acc0 V c (t.val - 1) (Nat.lt_of_le_of_lt (Nat.sub_le _ _) t.isLt)) :
    k0_pay2 (iblk0 V c 0 t) (iblk0 V c 1 t) (if condZ0 (grid0.coords t) then k0_pay1 (F := F) else s) = acc0 V c t.val t.isLt := by
  by_cases h0 : t.val % 6 = 0
  · rw [acc0_first V c t h0, if_pos ((hcondZ0 t).mpr h0)]
  · rw [acc0_next V c t h0, if_neg (mt (hcondZ0 t).mp h0), hs fun h => h0 (by rw [h])]

/-- The accumulator's buffer at contents `s`, beside the region's other resources. -/
abbrev rest0 (c : Dev nD) (s : Vec F S5000x64 .f32) : sProp 𝕄 :=
  iprop(iprop(owns (c : Thread nD τ) (Memref.whole cc0_scratch0) fullShare s ∗ Pipeline.scopedRestBut (Ix := Unit) (Name := ℕ) (U := UR sig nD τ) (Lvl := ℕ) (Val := Elt F) spec0 c [cc0_scratch0]) ∗ (∃ r, prngReg c r))

theorem PhiA_eq0 (c : Dev nD) : (Pipeline.ΦA spec0 c : sProp 𝕄)
    = iprop(iprop(iprop(∃ d, owns (c : Thread nD τ) (Memref.whole cc0_scratch0) fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [owns_whole]; try rfl

/-- The invariant before position `n`: past the first point the scratch holds what the position before left. -/
def Phi0 (c : Dev nD) (n : ℕ) (hn : n ≤ cfg0.N) : sProp 𝕄 :=
  iprop(∃ s, ⌜∀ h : n ≠ 0, s = acc0 V c (n - 1) (by omega)⌝ ∗ rest0 c s)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := rfl
theorem afterO0 (c : Dev nD) (t : Fin cfg0.N) : (dat0 V c).after 2 t = acc0 V c t.val t.isLt := rfl

theorem beforeS0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem beforeW0 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

/-- The output block is handed on as found off a last rating, and holds the accumulator at one. -/
theorem leavesO0 (c : Dev nD) (t : Fin cfg0.N) (d) :
    owns (c : Thread nD τ) (st0_2 t) fullShare (if condL0 (grid0.coords t) then acc0 V c t.val t.isLt else (dat0 V c).before 2 t d) ⊢ (dat0 V c).leavesExact 2 t := by
  by_cases hc1 : condL0 (grid0.coords t)
  · rw [if_pos hc1]; unfold Dat.leavesExact; rw [liveO0 t hc1]; exact .rfl
  · rw [if_neg hc1, Dat.leavesExact_idle (dat0 V c) 2 t (idleO0 t hc1) (noFlushO0 t hc1)]
    iintro H; iexists d; iexact H

theorem sound_body0 (c : Dev nD) (t : Fin cfg0.N) :
    iprop(Phi0 V c t.val (Nat.le_of_lt t.isLt) ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop(Phi0 V c (t.val + 1) t.isLt ∗ (dat0 V c).owesAt () t.castSucc
        ∗ owns (c : Thread nD τ) (st0_0 t) fullShare (iblk0 V c 0 t) ∗ owns (c : Thread nD τ) (st0_1 t) fullShare (iblk0 V c 1 t)
        ∗ (dat0 V c).leavesExact 2 t)) := by
  unfold bodyAt0 Phi0 rest0
  simp only [beforeS0, beforeW0]
  iintro ⟨⟨%s, %hs, ⟨HS, HR⟩, Hg⟩, Ho, ⟨%d0, H0⟩, ⟨%d1, H1⟩, ⟨%d2, H2⟩⟩
  iapply (kernel0 c Set.univ (grid0.coords t) _ _ _ _ _ _ _ _
    (fun hz hl => by have := (hcondZ0 t).mp hz; have := (hcondL0 t).mp hl; omega) (iblk0 V c 0 t) (iblk0 V c 1 t) ((dat0 V c).before 2 t d2) s _)
  iframe H0 H1 H2 HS
  rw [acc0_step V c t s hs]
  iintro ⟨H0, H1, H2, HS⟩
  ihave H2 := leavesO0 V c t d2 $$ H2
  iframe Ho H0 H1 H2
  iexists acc0 V c t.val t.isLt; iframe
  ipureintro; exact fun _ => rfl

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [PhiA_eq0, show (dat0 V c).Φ 0 = Phi0 V c 0 (Nat.zero_le _) from rfl]; unfold Phi0 rest0
  iintro ⟨⟨⟨%d, HS⟩, HR⟩, Hg⟩; iexists d; iframe; ipureintro; exact fun h => absurd rfl h

theorem hout0 (c : Dev nD) : (dat0 V c).Φ (Fin.last cfg0.N) ⊢ Pipeline.ΦA spec0 c := by
  rw [PhiA_eq0, show (dat0 V c).Φ (Fin.last cfg0.N) = Phi0 V c cfg0.N (Nat.le_refl _) from rfl]; unfold Phi0 rest0
  iintro ⟨%s, -, ⟨HS, HR⟩, Hg⟩; iframe HR Hg; iexists s; iexact HS

end Cert.KernelIdeal.Fr

end
-- ==== Proof.KI.RegVal.lean ====
import proofs.«421506_j68049461838612_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

noncomputable section

namespace Cert.KernelIdeal.Fr

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- The product of an m × k by a k × n block into the zero accumulator, at an index: the plain sum. -/
theorem matmul_zero_apply {m k n : ℕ} {φ₁ φ₂ : FTy} (D : DotDims ⟨2, ![m, k]⟩ ⟨2, ![k, n]⟩ ⟨2, ![m, n]⟩) (hD : D = DotDims.plain m k n)
    (A : FVec Ideal ⟨2, ![m, k]⟩ φ₁) (B : FVec Ideal ⟨2, ![k, n]⟩ φ₂) (a : Fin m) (b : Fin n) :
    matmul D none A B (constant ⟨2, ![m, n]⟩ .f32 0x00000000#32) (ix2 a b) = ∑ c : Fin k, A (ix2 a c) * B (ix2 c b) := by
  subst hD
  exact (congrFun (matmul_zero_eq_dotGeneral _ _ _ _) _).trans (StackMember.dotGeneral_plain_apply none A B a b)

/-- The reset value is zero. -/
theorem pay1_apply (y : S5000x64.Idx) : (k0_pay1 (F := Ideal) : S5000x64.Idx → EReal) y = 0 := by
  unfold k0_pay1
  refine (congrFun (shapeCast_self _ _) y).trans ?_
  show Ideal.ofBits .f32 0x00000000#32 = 0
  exact Ideal.ofBits_zero_f32

/-- One update adds the block's row times the weights' column. -/
theorem pay2_apply (v3 : S1x5000x64.Idx → EReal) (v6 : S1x64x64.Idx → EReal) (v9 : S5000x64.Idx → EReal) (p : Fin 5000) (i : Fin 64) :
    (k0_pay2 (F := Ideal) v3 v6 v9 : S5000x64.Idx → EReal) (ix2 p i)
      = v9 (ix2 p i) + ∑ j : Fin 64, v3 (ix3 (0 : Fin 1) p j) * v6 (ix3 (0 : Fin 1) j i) := by
  unfold k0_pay2
  refine (congrFun (shapeCast_self _ _) (ix2 p i)).trans (congrArg (v9 (ix2 p i) + ·) ?_)
  refine (matmul_zero_apply _ rfl _ _ p i).trans ?_
  exact Finset.sum_congr rfl fun j _ => congrArg₂ (· * ·) (shapeCast_1ab_ab_apply v3 _ p j) (shapeCast_1ab_ab_apply v6 _ j i)

section Acc
variable {N D : ℕ} (sA : (⟨3, ![6, D, 64]⟩ : Shape).Idx → EReal) (wA : S6x64x64.Idx → EReal)
  (eS : Fin N → S1x5000x64.Idx → (⟨3, ![6, D, 64]⟩ : Shape).Idx) (eW : Fin N → S1x64x64.Idx → S6x64x64.Idx)
  (eO : Fin N → S5000x64.Idx → (⟨2, ![D, 64]⟩ : Shape).Idx) (iS iW : Fin N → Fin 3 → ℕ) (iO : Fin N → Fin 2 → ℕ)
  (acc : (n : ℕ) → n < N → S5000x64.Idx → EReal)
  (hS : ∀ (t : Fin N) (x : S1x5000x64.Idx) (a : Fin 3), ((eS t x) a).val = iS t a * S1x5000x64.size a + (x a).val)
  (hW : ∀ (t : Fin N) (x : S1x64x64.Idx) (a : Fin 3), ((eW t x) a).val = iW t a * S1x64x64.size a + (x a).val)
  (hO : ∀ (t : Fin N) (y : S5000x64.Idx) (a : Fin 2), ((eO t y) a).val = iO t a * S5000x64.size a + (y a).val)
  (hi : ∀ t : Fin N, iS t 0 = t.val % 6 ∧ iS t 1 = t.val / 6 ∧ iS t 2 = 0 ∧ iW t 0 = t.val % 6 ∧ iW t 1 = 0 ∧ iW t 2 = 0
    ∧ iO t 0 = t.val / 6 ∧ iO t 1 = 0)
  (h0 : ∀ t : Fin N, t.val % 6 = 0 →
    acc t.val t.isLt = k0_pay2 (F := Ideal) (fun x => sA (eS t x)) (fun x => wA (eW t x)) (k0_pay1 (F := Ideal)))
  (h1 : ∀ t : Fin N, ¬t.val % 6 = 0 → acc t.val t.isLt
    = k0_pay2 (F := Ideal) (fun x => sA (eS t x)) (fun x => wA (eW t x)) (acc (t.val - 1) (Nat.lt_of_le_of_lt (Nat.sub_le _ _) t.isLt)))
include hS hW hO hi h0 h1

/-- At a row block's last rating the accumulator, a fold that restarts at every sixth position, is its block of the six ratings' sum. -/
theorem acc_last (t : Fin N) (h5 : t.val % 6 = 5) (y : S5000x64.Idx) :
    acc t.val t.isLt y = ∑ r : Fin 6, ∑ j : Fin 64, sA (ix3 r ((eO t y) 0) j) * wA (ix3 r j ((eO t y) 1)) := by
  have hb : 6 * (t.val / 6) + t.val % 6 < N := by have := t.isLt; omega
  have hpay : ∀ (n : ℕ) (h : n < N) (v : S5000x64.Idx → EReal) (y : S5000x64.Idx),
      (k0_pay2 (F := Ideal) (fun x => sA (eS ⟨n, h⟩ x)) (fun x => wA (eW ⟨n, h⟩ x)) v : S5000x64.Idx → EReal) y
        = v y + if h : n < N then ∑ j : Fin 64, sA (eS ⟨n, h⟩ (ix3 (0 : Fin 1) (y 0) j)) * wA (eW ⟨n, h⟩ (ix3 (0 : Fin 1) j (y 1))) else 0 :=
    fun n h v y => by
      rw [dif_pos h]
      exact (congrArg _ (eq_ix2 y)).trans ((pay2_apply _ _ v (y 0) (y 1)).trans (congrArg (v · + _) (eq_ix2 y).symm))
  rw [Pipeline.eq_accAt_of_mod acc 6
      (fun n h => k0_pay2 (F := Ideal) (fun x => sA (eS ⟨n, h⟩ x)) (fun x => wA (eW ⟨n, h⟩ x)) (k0_pay1 (F := Ideal)))
      (fun n h v => k0_pay2 (F := Ideal) (fun x => sA (eS ⟨n, h⟩ x)) (fun x => wA (eW ⟨n, h⟩ x)) v)
      (fun n h hz => h0 ⟨n, h⟩ hz) (fun n h hz => h1 ⟨n + 1, h⟩ hz) (by omega) t.val t.isLt hb]
  refine (Pipeline.accAt_add_apply _ _ (fun _ => 0)
      (fun n y => if h : n < N then ∑ j : Fin 64, sA (eS ⟨n, h⟩ (ix3 (0 : Fin 1) (y 0) j)) * wA (eW ⟨n, h⟩ (ix3 (0 : Fin 1) j (y 1))) else 0)
      (6 * (t.val / 6)) 5 (fun h y => (hpay _ h _ y).trans (by rw [pay1_apply])) (fun n h v y _ _ => hpay n h v y) (t.val % 6) (by omega) hb y).trans
    ((zero_add _).trans ?_)
  rw [h5, Finset.sum_range]
  refine Finset.sum_congr rfl fun r _ => ?_
  have hr : r.val < 6 := r.isLt
  have hn : 6 * (t.val / 6) + r.val < N := by omega
  obtain ⟨s0, s1, s2, w0, w1, w2, -⟩ := hi ⟨_, hn⟩
  obtain ⟨-, -, -, -, -, -, o0, o1⟩ := hi t
  rw [dif_pos hn]
  refine Finset.sum_congr rfl fun j _ => congrArg₂ (fun a b => sA a * wA b) (funext fun a => Fin.ext ?_) (funext fun a => Fin.ext ?_)
  · match a with
    | ⟨0, _⟩ => exact (hS _ _ 0).trans (by show iS ⟨_, hn⟩ 0 * 1 + 0 = r.val; rw [s0]; show (6 * (t.val / 6) + r.val) % 6 * 1 + 0 = r.val; omega)
    | ⟨1, _⟩ => exact (hS _ _ 1).trans (((by show iS ⟨_, hn⟩ 1 * 5000 + (y 0).val = iO t 0 * 5000 + (y 0).val; rw [s1, o0]; show (6 * (t.val / 6) + r.val) / 6 * 5000 + _ = _; omega) : _ = _).trans (hO t y 0).symm)
    | ⟨2, _⟩ => exact (hS _ _ 2).trans (by show iS ⟨_, hn⟩ 2 * 64 + j.val = j.val; omega)
  · match a with
    | ⟨0, _⟩ => exact (hW _ _ 0).trans (by show iW ⟨_, hn⟩ 0 * 1 + 0 = r.val; rw [w0]; show (6 * (t.val / 6) + r.val) % 6 * 1 + 0 = r.val; omega)
    | ⟨1, _⟩ => exact (hW _ _ 1).trans (by show iW ⟨_, hn⟩ 1 * 64 + j.val = j.val; omega)
    | ⟨2, _⟩ => exact (hW _ _ 2).trans (((by show iW ⟨_, hn⟩ 2 * 64 + (y 1).val = iO t 1 * 64 + (y 1).val; omega) : _ = _).trans (hO t y 1).symm)

end Acc

/-- Two blocks of 64 columns side by side, at a column: the left one below 64, else the right one. -/
theorem concat_apply {α : Type} (v1 v3 : S5000x64.Idx → α) (p : Fin 5000) (q : Fin 128) :
    concatenate S5000x128 1 [⟨S5000x64, v1⟩, ⟨S5000x64, v3⟩] concatenates_S5000x64_S5000x64_S5000x128_d1 (ix2 p q)
      = if h : q.val < 64 then v1 (ix2 p ⟨q.val, h⟩) else v3 (ix2 p ⟨q.val - 64, by omega⟩) := by
  by_cases h : q.val < 64
  · rw [dif_pos h]
    exact concatenate_pair_apply_left 1 v1 v3 _ (ix2 p q) rfl (ix2 p ⟨q.val, h⟩)
      (fun b => by match b with | ⟨0, _⟩ => rfl | ⟨1, _⟩ => rfl)
  · rw [dif_neg h]
    exact concatenate_pair_apply_right 1 v1 v3 _ (ix2 p q) rfl rfl (ix2 p ⟨q.val - 64, by omega⟩)
      (fun b hb => by match b with | ⟨0, _⟩ => rfl | ⟨1, _⟩ => exact absurd rfl hb)
      (by show (q.val - 64) + 64 = q.val; omega)

theorem bcast_apply {α : Type} (x : S1x64.Idx → α) (p : Fin 5000) (k : Fin 64) :
    broadcastTo S5000x64 x broadcasts_S1x64_S5000x64 (ix2 p k) = x (ix2 0 k) :=
  broadcastTo_apply x _ (ix2 p k) (ix2 0 k) (fun a => by match a with | ⟨0, _⟩ => rfl | ⟨1, _⟩ => rfl)

/-- One row of the result: the two joined rows times the first matrix, plus the first bias, clipped below at zero, times the second matrix, plus the second bias. -/
def projRow (r0 r1 : Fin 64 → EReal) (a2 : S128x64.Idx → EReal) (a3 : S1x64.Idx → EReal) (a4 : S64x64.Idx → EReal) (a5 : S1x64.Idx → EReal)
    (o : Fin 64) : EReal :=
  (∑ k : Fin 64,
      max ((∑ q : Fin 128, (if h : q.val < 64 then r0 ⟨q.val, h⟩ else r1 ⟨q.val - 64, by omega⟩) * a2 (ix2 q k)) + a3 (ix2 0 k)) 0 * a4 (ix2 k o))
    + a5 (ix2 0 o)

/-- The stored block at an index is `projRow` of the loaded blocks. -/
theorem pay_apply (x0 x1 : Vec Ideal S5000x64 .f32) (x2 : Vec Ideal S128x64 .f32) (x3 : Vec Ideal S1x64 .f32) (x4 : Vec Ideal S64x64 .f32)
    (x5 : Vec Ideal S1x64 .f32) (p : Fin 5000) (o : Fin 64) (r0 r1 : Fin 64 → EReal) (a2 : S128x64.Idx → EReal) (a3 : S1x64.Idx → EReal)
    (a4 : S64x64.Idx → EReal) (a5 : S1x64.Idx → EReal) (o' : Fin 64)
    (h0 : ∀ q : Fin 64, (x0 : S5000x64.Idx → EReal) (ix2 p q) = r0 q) (h1 : ∀ q : Fin 64, (x1 : S5000x64.Idx → EReal) (ix2 p q) = r1 q)
    (h2 : (x2 : S128x64.Idx → EReal) = a2) (h3 : (x3 : S1x64.Idx → EReal) = a3) (h4 : (x4 : S64x64.Idx → EReal) = a4)
    (h5 : (x5 : S1x64.Idx → EReal) = a5) (ho : o = o') :
    (k2_pay1 x0 x1 x2 x3 x4 x5 : S5000x64.Idx → EReal) (ix2 p o) = projRow r0 r1 a2 a3 a4 a5 o' := by
  subst h2 h3 h4 h5 ho
  unfold k2_pay1 projRow
  simp only [addf_apply, maximumf_apply, truncf_apply, broadcast_apply, shapeCast_self, bcast_apply, concat_apply, Scalar.ofBits, Ideal.ofBits_def,
    Ideal.ofBits_zero_f32, matmul_zero_apply dot_S5000x128_S128x64_S5000x64_1_0_0_1_n_n rfl, matmul_zero_apply dot_S5000x64_S64x64_S5000x64_1_0_0_1_n_n rfl,
    h0, h1]

theorem zeros2 : (![0, 0] : Fin 2 → Nat) = fun _ => 0 := funext fun a => by fin_cases a <;> rfl

end Cert.KernelIdeal.Fr

end
-- ==== Proof.KI.RegAcc0Val.lean ====
import proofs.«421506_j68049461838612_3_alg».proof.Proof.KI.RegAcc0
import proofs.«421506_j68049461838612_3_alg».proof.Proof.KI.RegVal

noncomputable section

namespace Cert.KernelIdeal.Fr

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

abbrev sArr0 (c : Dev nD) : S6x50000x64.Idx → EReal := V c main_v78
abbrev wArr0 (c : Dev nD) : S6x64x64.Idx → EReal := V c main_v83
abbrev oArr0 (c : Dev nD) : S50000x64.Idx → EReal := (dat0 (F := Ideal) V c).arrAt 2 cfg0.N

theorem idx0 : ∀ t : Fin cfg0.N,
      win0_0.index t (0 : Fin 3) = t.val % 6 ∧ win0_0.index t (1 : Fin 3) = t.val / 6 ∧ win0_0.index t (2 : Fin 3) = 0
    ∧ win0_1.index t (0 : Fin 3) = t.val % 6 ∧ win0_1.index t (1 : Fin 3) = 0 ∧ win0_1.index t (2 : Fin 3) = 0
    ∧ win0_2.index t (0 : Fin 2) = t.val / 6 ∧ win0_2.index t (1 : Fin 2) = 0 :=
  (by decide +kernel : ∀ t : Fin grid0.N, _)

/-- What the output array ends holding. -/
def G0 (c : Dev nD) : S50000x64.Idx → EReal := fun y =>
  ∑ r : Fin 6, ∑ j : Fin 64, sArr0 V c (ix3 r (y 0) j) * wArr0 V c (ix3 r j (y 1))

/-- At a last-rating position the accumulator is the position's block of `G0`. -/
theorem flushed0_eq (c : Dev nD) (t : Fin cfg0.N) (hf : (cfg0.win 2).flush t = true) :
    (dat0 V c).flushed 2 t = ((cfg0.win 2).blk t).view.read (Elt Ideal) (G0 V c) := by
  show (cfg0.win 2).cut (grid0.coords t) ((dat0 V c).after 2 t) = _
  rw [afterO0]
  exact funext (acc_last (sArr0 V c) (wArr0 V c) (fun t x => ((cfg0.win 0).blk t).view.emb x) (fun t x => ((cfg0.win 1).blk t).view.emb x)
    (fun t y => ((cfg0.win 2).blk t).view.emb y) (fun t => win0_0.index t) (fun t => win0_1.index t) (fun t => win0_2.index t) (acc0 V c)
    (fun t x a => win0_0.rect_emb_val t x a) (fun t x a => win0_1.rect_emb_val t x a) (fun t y a => win0_2.rect_emb_val t y a) idx0
    (acc0_first V c) (acc0_next V c) t ((flush0_2 t).mp hf))

/-- Every row is in the block of its row block's last-rating position. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 * 6 + 5 := ⟨⟨_, by rw [show cfg0.N = 60 from N_0]; omega⟩, rfl⟩
  obtain ⟨-, -, -, -, -, -, e0, e1⟩ := idx0 t
  refine ⟨t, (flush0_2 t).mpr (by omega), ?_⟩
  show i ∈ ((View.whole main_v85).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

theorem final0 (c : Dev nD) (d : Fin 50000) (i : Fin 64) :
    oArr0 V c (ValueIdx.ix2 d i)
      = ∑ r : Fin 6, ∑ j : Fin 64, sArr0 V c (ValueIdx.ix3 r d j) * wArr0 V c (ValueIdx.ix3 r j i) :=
  congrFun ((dat0 V c).arrAt_eq_of_cover 2 (G0 V c) (flushed0_eq V c) cover0) (ix2 d i)

end Cert.KernelIdeal.Fr

end
-- ==== Proof.KI.RegAcc1.lean ====
import proofs.«421506_j68049461838612_3_alg».proof.Proof.KI.RegAcc0

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A grid point of region 0 with the same rating as a grid point of region 1. -/
def toG0 (i : grid1.Coords) : grid0.Coords := fun a => match a with
  | ⟨0, _⟩ => ⟨0, (by decide : 0 < 10)⟩
  | ⟨1, _⟩ => ⟨(i 1).val, (i 1).isLt⟩

abbrev condZ1 (i : grid1.Coords) : Prop := condZ0 (toG0 i)
abbrev condL1 (i : grid1.Coords) : Prop := condL0 (toG0 i)

/-- Region 1 runs region 0's kernel function, which reads of the grid point only its rating. -/
theorem cc1_eq_cc0 (i : grid1.Coords)
    (arg2 : Memref sig .tc .vmem S1x5000x64 .f32) (harg2 : arg2.IsWhole) (arg3 : Memref sig .tc .vmem S1x64x64 .f32) (harg3 : arg3.IsWhole)
    (arg4 : Memref sig .tc .vmem S5000x64 .f32) (harg4 : arg4.IsWhole) (arg5 : Memref sig .tc .vmem S5000x64 .f32) (harg5 : arg5.IsWhole) :
    cc1__relation_combine_kernel (F := F) i arg2 harg2 arg3 harg3 arg4 harg4 arg5 harg5
      = cc0__relation_combine_kernel (toG0 i) arg2 harg2 arg3 harg3 arg4 harg4 arg5 harg5 := by
  simp only [cc1__relation_combine_kernel_eq_skeleton, cc0__relation_combine_kernel_eq_skeleton]
  unfold cc1__relation_combine_kernel_skel cc0__relation_combine_kernel_skel
  rfl

/-- The body's two tests pick out a row block's first and last rating. -/
theorem hcondZ1 : ∀ t : Fin cfg1.N, condZ1 (grid1.coords t) ↔ t.val % 6 = 0 :=
  (by decide +kernel : ∀ t : Fin grid1.N, condZ1 (grid1.coords t) ↔ t.val % 6 = 0)
theorem hcondL1 : ∀ t : Fin cfg1.N, condL1 (grid1.coords t) ↔ t.val % 6 = 5 :=
  (by decide +kernel : ∀ t : Fin grid1.N, condL1 (grid1.coords t) ↔ t.val % 6 = 5)

theorem idleO1 : ∀ t : Fin cfg1.N, ¬condL1 (grid1.coords t) → cfg1.idle 2 (grid1.coords t) = true := by decide +kernel
theorem noFlushO1 : ∀ t : Fin cfg1.N, ¬condL1 (grid1.coords t) → (cfg1.win 2).flush t = false := by decide +kernel
theorem liveO1 : ∀ t : Fin cfg1.N, condL1 (grid1.coords t) → cfg1.idle 2 (grid1.coords t) = false := by decide +kernel

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after grid position `n`: restarted at a row block's first rating, else carried on. -/
def acc1 (c : Dev nD) : (n : ℕ) → n < cfg1.N → Vec F S5000x64 .f32
  | 0, hn => k1_pay2 (iblk1 V c 0 ⟨0, hn⟩) (iblk1 V c 1 ⟨0, hn⟩) (k1_pay1 (F := F))
  | n + 1, hn =>
    if (n + 1) % 6 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 6 = 0) :
    acc1 V c t.val t.isLt = k1_pay2 (iblk1 V c 0 t) (iblk1 V c 1 t) (k1_pay1 (F := F)) := by
  obtain ⟨_ | n, hn⟩ := t
  · rfl
  · exact if_pos h0

theorem acc1_next (c : Dev nD) (t : Fin cfg1.N) (h0 : ¬t.val % 6 = 0) :
    acc1 V c t.val t.isLt = k1_pay2 (iblk1 V c 0 t) (iblk1 V c 1 t) (acc1 V c (t.val - 1) (Nat.lt_of_le_of_lt (Nat.sub_le _ _) t.isLt)) := by
  obtain ⟨_ | n, hn⟩ := t
  · exact absurd (Nat.zero_mod _) h0
  · exact if_neg h0

/-- The same step in the shape the body's triple leaves it, over whatever the scratch held before. -/
theorem acc1_step (c : Dev nD) (t : Fin cfg1.N) (s : Vec F S5000x64 .f32)
    (hs : ∀ h : t.val ≠ 0, s = acc1 V c (t.val - 1) (Nat.lt_of_le_of_lt (Nat.sub_le _ _) t.isLt)) :
    k0_pay2 (iblk1 V c 0 t) (iblk1 V c 1 t) (if condZ1 (grid1.coords t) then k0_pay1 (F := F) else s) = acc1 V c t.val t.isLt := by
  show k1_pay2 (iblk1 V c 0 t) (iblk1 V c 1 t) (if condZ1 (grid1.coords t) then k1_pay1 (F := F) else s) = _
  by_cases h0 : t.val % 6 = 0
  · rw [acc1_first V c t h0, if_pos ((hcondZ1 t).mpr h0)]
  · rw [acc1_next V c t h0, if_neg (mt (hcondZ1 t).mp h0), hs fun h => h0 (by rw [h])]

/-- The accumulator's buffer at contents `s`, beside the region's other resources. -/
abbrev rest1 (c : Dev nD) (s : Vec F S5000x64 .f32) : sProp 𝕄 :=
  iprop(iprop(owns (c : Thread nD τ) (Memref.whole cc1_scratch0) fullShare s ∗ Pipeline.scopedRestBut (Ix := Unit) (Name := ℕ) (U := UR sig nD τ) (Lvl := ℕ) (Val := Elt F) spec1 c [cc1_scratch0]) ∗ (∃ r, prngReg c r))

theorem PhiA_eq1 (c : Dev nD) : (Pipeline.ΦA spec1 c : sProp 𝕄)
    = iprop(iprop(iprop(∃ d, owns (c : Thread nD τ) (Memref.whole cc1_scratch0) fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [owns_whole]; try rfl

/-- The invariant before position `n`: past the first point the scratch holds what the position before left. -/
def Phi1 (c : Dev nD) (n : ℕ) (hn : n ≤ cfg1.N) : sProp 𝕄 :=
  iprop(∃ s, ⌜∀ h : n ≠ 0, s = acc1 V c (n - 1) (by omega)⌝ ∗ rest1 c s)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := rfl
theorem afterO1 (c : Dev nD) (t : Fin cfg1.N) : (dat1 V c).after 2 t = acc1 V c t.val t.isLt := rfl

theorem beforeS1 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem beforeW1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

/-- The output block is handed on as found off a last rating, and holds the accumulator at one. -/
theorem leavesO1 (c : Dev nD) (t : Fin cfg1.N) (d) :
    owns (c : Thread nD τ) (st1_2 t) fullShare (if condL1 (grid1.coords t) then acc1 V c t.val t.isLt else (dat1 V c).before 2 t d) ⊢ (dat1 V c).leavesExact 2 t := by
  by_cases hc1 : condL1 (grid1.coords t)
  · rw [if_pos hc1]; unfold Dat.leavesExact; rw [liveO1 t hc1]; exact .rfl
  · rw [if_neg hc1, Dat.leavesExact_idle (dat1 V c) 2 t (idleO1 t hc1) (noFlushO1 t hc1)]
    iintro H; iexists d; iexact H

theorem sound_body1 (c : Dev nD) (t : Fin cfg1.N) :
    iprop(Phi1 V c t.val (Nat.le_of_lt t.isLt) ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) (fun _ =>
      iprop(Phi1 V c (t.val + 1) t.isLt ∗ (dat1 V c).owesAt () t.castSucc
        ∗ owns (c : Thread nD τ) (st1_0 t) fullShare (iblk1 V c 0 t) ∗ owns (c : Thread nD τ) (st1_1 t) fullShare (iblk1 V c 1 t)
        ∗ (dat1 V c).leavesExact 2 t)) := by
  unfold bodyAt1 Phi1 rest1
  rw [cc1_eq_cc0]
  simp only [beforeS1, beforeW1]
  iintro ⟨⟨%s, %hs, ⟨HS, HR⟩, Hg⟩, Ho, ⟨%d0, H0⟩, ⟨%d1, H1⟩, ⟨%d2, H2⟩⟩
  iapply (kernel0 c Set.univ (toG0 (grid1.coords t)) _ _ _ _ _ _ _ _
    (fun hz hl => by have := (hcondZ1 t).mp hz; have := (hcondL1 t).mp hl; omega) (iblk1 V c 0 t) (iblk1 V c 1 t) ((dat1 V c).before 2 t d2) s _)
  iframe H0 H1 H2 HS
  rw [acc1_step V c t s hs]
  iintro ⟨H0, H1, H2, HS⟩
  ihave H2 := leavesO1 V c t d2 $$ H2
  iframe Ho H0 H1 H2
  iexists acc1 V c t.val t.isLt; iframe
  ipureintro; exact fun _ => rfl

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA_eq1, show (dat1 V c).Φ 0 = Phi1 V c 0 (Nat.zero_le _) from rfl]; unfold Phi1 rest1
  iintro ⟨⟨⟨%d, HS⟩, HR⟩, Hg⟩; iexists d; iframe; ipureintro; exact fun h => absurd rfl h

theorem hout1 (c : Dev nD) : (dat1 V c).Φ (Fin.last cfg1.N) ⊢ Pipeline.ΦA spec1 c := by
  rw [PhiA_eq1, show (dat1 V c).Φ (Fin.last cfg1.N) = Phi1 V c cfg1.N (Nat.le_refl _) from rfl]; unfold Phi1 rest1
  iintro ⟨%s, -, ⟨HS, HR⟩, Hg⟩; iframe HR Hg; iexists s; iexact HS

end Cert.KernelIdeal.Fr

end
-- ==== Proof.KI.RegAcc1Val.lean ====
import proofs.«421506_j68049461838612_3_alg».proof.Proof.KI.RegAcc1
import proofs.«421506_j68049461838612_3_alg».proof.Proof.KI.RegVal

noncomputable section

namespace Cert.KernelIdeal.Fr

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

abbrev sArr1 (c : Dev nD) : S6x100000x64.Idx → EReal := V c main_v82
abbrev wArr1 (c : Dev nD) : S6x64x64.Idx → EReal := V c main_v84
abbrev oArr1 (c : Dev nD) : S100000x64.Idx → EReal := (dat1 (F := Ideal) V c).arrAt 2 cfg1.N

theorem idx1 : ∀ t : Fin cfg1.N,
      win1_0.index t (0 : Fin 3) = t.val % 6 ∧ win1_0.index t (1 : Fin 3) = t.val / 6 ∧ win1_0.index t (2 : Fin 3) = 0
    ∧ win1_1.index t (0 : Fin 3) = t.val % 6 ∧ win1_1.index t (1 : Fin 3) = 0 ∧ win1_1.index t (2 : Fin 3) = 0
    ∧ win1_2.index t (0 : Fin 2) = t.val / 6 ∧ win1_2.index t (1 : Fin 2) = 0 :=
  (by decide +kernel : ∀ t : Fin grid1.N, _)

/-- What the output array ends holding. -/
def G1 (c : Dev nD) : S100000x64.Idx → EReal := fun y =>
  ∑ r : Fin 6, ∑ j : Fin 64, sArr1 V c (ix3 r (y 0) j) * wArr1 V c (ix3 r j (y 1))

/-- At a last-rating position the accumulator is the position's block of `G1`. -/
theorem flushed1_eq (c : Dev nD) (t : Fin cfg1.N) (hf : (cfg1.win 2).flush t = true) :
    (dat1 V c).flushed 2 t = ((cfg1.win 2).blk t).view.read (Elt Ideal) (G1 V c) := by
  show (cfg1.win 2).cut (grid1.coords t) ((dat1 V c).after 2 t) = _
  rw [afterO1]
  exact funext (acc_last (sArr1 V c) (wArr1 V c) (fun t x => ((cfg1.win 0).blk t).view.emb x) (fun t x => ((cfg1.win 1).blk t).view.emb x)
    (fun t y => ((cfg1.win 2).blk t).view.emb y) (fun t => win1_0.index t) (fun t => win1_1.index t) (fun t => win1_2.index t) (acc1 V c)
    (fun t x a => win1_0.rect_emb_val t x a) (fun t x a => win1_1.rect_emb_val t x a) (fun t y a => win1_2.rect_emb_val t y a) idx1
    (acc1_first V c) (acc1_next V c) t ((flush1_2 t).mp hf))

/-- Every row is in the block of its row block's last-rating position. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 5000 * 6 + 5 := ⟨⟨_, by rw [show cfg1.N = 120 from N_1]; omega⟩, rfl⟩
  obtain ⟨-, -, -, -, -, -, e0, e1⟩ := idx1 t
  refine ⟨t, (flush1_2 t).mpr (by omega), ?_⟩
  show i ∈ ((View.whole main_v86).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

theorem final1 (c : Dev nD) (d : Fin 100000) (i : Fin 64) :
    oArr1 V c (ValueIdx.ix2 d i)
      = ∑ r : Fin 6, ∑ j : Fin 64, sArr1 V c (ValueIdx.ix3 r d j) * wArr1 V c (ValueIdx.ix3 r j i) :=
  congrFun ((dat1 V c).arrAt_eq_of_cover 2 (G1 V c) (flushed1_eq V c) cover1) (ix2 d i)

end Cert.KernelIdeal.Fr

end
-- ==== Proof.KI.RegProj2.lean ====
import proofs.«421506_j68049461838612_3_alg».proof.Proof.Gen.KernelIdeal.Launch
import proofs.«421506_j68049461838612_3_alg».proof.Proof.Gen.KernelIdeal.Skeleton
import proofs.«421506_j68049461838612_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S128x64 := Rect.unit (s := S128x64) ![0, 0] S128x64.size inb_S128x64_S128x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-- The body's one store, of the whole output block, as a function of the six loaded blocks. -/
def out2 (x0 x1 : Vec F S5000x64 .f32) (x2 : Vec F S128x64 .f32) (x3 : Vec F S1x64 .f32) (x4 : Vec F S64x64 .f32) (x5 : Vec F S1x64 .f32) : Vec F S5000x64 .f32 :=
  View.canon [⟨r2_0, k2_pay1 (View.ld x0 r2_0) (View.ld x1 r2_0) (View.ld x2 r2_1) (View.ld x3 r2_2) (View.ld x4 r2_3) (View.ld x5 r2_2)⟩]

theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (x0 x1 : Vec F S5000x64 .f32) (x2 : Vec F S128x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2 x0 x1 x2 x3 x4 x5)) -∗ K ⟨⟩))
      ⊢ wp frame (wpE (defs₀ (F := F)) Variants.none c none) E
          (cc2__combine_proj_kernel i arg1 harg1 arg2 harg2 arg3 harg3 arg4 harg4 arg5 harg5 arg6 harg6 arg7 harg7) K := by
  simp only [cc2__combine_proj_kernel_eq_skeleton]; unfold cc2__combine_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_6 (c : Dev nD) (t : Fin cfg2.N) : (dat2 V c).after 6 t
    = out2 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

/-- At any point the body finds the six input blocks, stores the projection, and passes everything else through. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t)
        ∗ owns (c : Thread nD τ) (st2_6 t) fullShare ((dat2 V c).after 6 t))) := by
  unfold bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro ⟨H0, H1, H2, H3, H4, H5, H6⟩
  dsimp only [dat2]
  iframe

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.RegProj2Val.lean ====
import proofs.«421506_j68049461838612_3_alg».proof.Proof.KI.RegProj2
import proofs.«421506_j68049461838612_3_alg».proof.Proof.KI.RegVal

noncomputable section

namespace Cert.KernelIdeal.Fr

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

def proj2 (a0 a1 : S50000x64.Idx → EReal) (a2 : S128x64.Idx → EReal) (a3 : S1x64.Idx → EReal) (a4 : S64x64.Idx → EReal) (a5 : S1x64.Idx → EReal) :
    S50000x64.Idx → EReal := fun i => projRow (fun q => a0 (ix2 (i 0) q)) (fun q => a1 (ix2 (i 0) q)) a2 a3 a4 a5 (i 1)

theorem proj2_apply (a0 a1 : S50000x64.Idx → EReal) (a2 : S128x64.Idx → EReal) (a3 : S1x64.Idx → EReal) (a4 : S64x64.Idx → EReal) (a5 : S1x64.Idx → EReal)
    (d : Fin 50000) (o : Fin 64) :
    proj2 a0 a1 a2 a3 a4 a5 (ValueIdx.ix2 d o)
      = (∑ k : Fin 64,
            max ((∑ q : Fin 128, (if h : q.val < 64 then a0 (ValueIdx.ix2 d ⟨q.val, h⟩) else a1 (ValueIdx.ix2 d ⟨q.val - 64, by omega⟩)) * a2 (ValueIdx.ix2 q k))
                  + a3 (ValueIdx.ix2 0 k)) 0
              * a4 (ValueIdx.ix2 k o))
        + a5 (ValueIdx.ix2 0 o) := rfl

theorem idx2 : ∀ t : Fin cfg2.N,
      win2_0.index t (0 : Fin 2) = t.val ∧ win2_0.index t (1 : Fin 2) = 0 ∧ win2_1.index t (0 : Fin 2) = t.val ∧ win2_1.index t (1 : Fin 2) = 0
    ∧ (∀ a : Fin 2, win2_2.index t a = 0) ∧ (∀ a : Fin 2, win2_3.index t a = 0) ∧ (∀ a : Fin 2, win2_4.index t a = 0) ∧ (∀ a : Fin 2, win2_5.index t a = 0)
    ∧ win2_6.index t (0 : Fin 2) = t.val ∧ win2_6.index t (1 : Fin 2) = 0 :=
  (by decide +kernel : ∀ t : Fin grid2.N, _)

abbrev G2 (c : Dev nD) : S50000x64.Idx → EReal :=
  proj2 (V c main_v29) (V c main_v85) (V c main_v87) (V c main_v89) (V c main_v88) (V c main_v90)

/-- The stored block at point `t` is block `t` of `G2`. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2
  rw [View.canon_unit_zero zeros2]
  simp only [View.ld_unit_zero (S := S5000x64) zeros2, View.ld_unit_zero (S := S128x64) zeros2, View.ld_unit_zero (S := S1x64) zeros2, View.ld_unit_zero (S := S64x64) zeros2]
  obtain ⟨e00, e01, e10, e11, e2, e3, e4, e5, e60, e61⟩ := idx2 t
  funext j
  show _ = G2 V c (((cfg2.win 6).blk t).view.emb j)
  refine (congrArg _ (eq_ix2 j)).trans (pay_apply _ _ _ _ _ _ (j 0) (j 1) _ _ _ _ _ _ _ (fun q => congrArg (V c main_v29) (Shape.idx_ext₂ ?_ ?_)) (fun q => congrArg (V c main_v85) (Shape.idx_ext₂ ?_ ?_))
    (funext fun x => congrArg (V c main_v87) (funext fun a => Fin.ext (win2_2.rect_emb_val_of_index_zero t a (e2 a) x)))
    (funext fun x => congrArg (V c main_v89) (funext fun a => Fin.ext (win2_3.rect_emb_val_of_index_zero t a (e3 a) x)))
    (funext fun x => congrArg (V c main_v88) (funext fun a => Fin.ext (win2_4.rect_emb_val_of_index_zero t a (e4 a) x)))
    (funext fun x => congrArg (V c main_v90) (funext fun a => Fin.ext (win2_5.rect_emb_val_of_index_zero t a (e5 a) x))) (Fin.ext ?_))
  · show win2_0.index t (0 : Fin 2) * 5000 + 1 * (j 0).val = win2_6.index t (0 : Fin 2) * 5000 + 1 * (j 0).val; omega
  · show win2_0.index t (1 : Fin 2) * 64 + 1 * q.val = q.val; omega
  · show win2_1.index t (0 : Fin 2) * 5000 + 1 * (j 0).val = win2_6.index t (0 : Fin 2) * 5000 + 1 * (j 0).val; omega
  · show win2_1.index t (1 : Fin 2) * 64 + 1 * q.val = q.val; omega
  · show (j 1).val = win2_6.index t (1 : Fin 2) * 64 + 1 * (j 1).val; omega

/-- Every row of the result array is in the block of the point of its row block. -/
theorem cover2 (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N * 5000 = 50000 := by rw [show cfg2.N = grid2.N from rfl, N_2]
  obtain ⟨t, ht⟩ : ∃ t : Fin cfg2.N, t.val = (i 0).val / 5000 := ⟨⟨_, by omega⟩, rfl⟩
  obtain ⟨-, -, -, -, -, -, -, -, e0, e1⟩ := idx2 t
  refine ⟨t, flush2_6 t, ?_⟩
  show i ∈ ((View.whole main_v91).slice (win2_6.rect t)).set
  rw [View.set_slice_whole, Rect.mem_set_unit]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

theorem final2 (c : Dev nD) (d : Fin 50000) (o : Fin 64) :
    ((dat2 (F := Ideal) V c).arrAt 6 cfg2.N : S50000x64.Idx → EReal) (ValueIdx.ix2 d o)
      = proj2 (V c main_v29) (V c main_v85) (V c main_v87) (V c main_v89) (V c main_v88) (V c main_v90) (ValueIdx.ix2 d o) :=
  congrFun ((dat2 (F := Ideal) V c).arrAt_eq_of_cover 6 (G2 V c) (fun t _ => flushed2_eq V c t) cover2) _

end Cert.KernelIdeal.Fr

end
-- ==== Proof.KI.RegProj3.lean ====
import proofs.«421506_j68049461838612_3_alg».proof.Proof.KI.RegProj2

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3 (x0 x1 : Vec F S5000x64 .f32) (x2 : Vec F S128x64 .f32) (x3 : Vec F S1x64 .f32) (x4 : Vec F S64x64 .f32) (x5 : Vec F S1x64 .f32) : Vec F S5000x64 .f32 :=
  View.canon [⟨r2_0, k3_pay1 (View.ld x0 r2_0) (View.ld x1 r2_0) (View.ld x2 r2_1) (View.ld x3 r2_2) (View.ld x4 r2_3) (View.ld x5 r2_2)⟩]

/-- Region 3 runs region 2's kernel function: the two bodies are one program, whatever the grid point. -/
theorem cc3_eq_cc2 (i3 : grid3.Coords) (i2 : grid2.Coords)
    (arg1 : Memref sig .tc .vmem S5000x64 .f32) (harg1 : arg1.IsWhole) (arg2 : Memref sig .tc .vmem S5000x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole) :
    cc3__combine_proj_kernel (F := F) i3 arg1 harg1 arg2 harg2 arg3 harg3 arg4 harg4 arg5 harg5 arg6 harg6 arg7 harg7
      = cc2__combine_proj_kernel i2 arg1 harg1 arg2 harg2 arg3 harg3 arg4 harg4 arg5 harg5 arg6 harg6 arg7 harg7 := by
  simp only [cc3__combine_proj_kernel_eq_skeleton, cc2__combine_proj_kernel_eq_skeleton]
  unfold cc3__combine_proj_kernel_skel cc2__combine_proj_kernel_skel
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by dsimp only [dat3]

theorem after3_6 (c : Dev nD) (t : Fin cfg3.N) : (dat3 V c).after 6 t
    = out3 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d))
      ∗ (∃ d, owns (c : Thread nD τ) (st3_6 t) fullShare ((dat3 V c).before 6 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)
        ∗ owns (c : Thread nD τ) (st3_3 t) fullShare ((dat3 V c).after 3 t)
        ∗ owns (c : Thread nD τ) (st3_4 t) fullShare ((dat3 V c).after 4 t)
        ∗ owns (c : Thread nD τ) (st3_5 t) fullShare ((dat3 V c).after 5 t)
        ∗ owns (c : Thread nD τ) (st3_6 t) fullShare ((dat3 V c).after 6 t))) := by
  unfold bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    cc3_eq_cc2 _ (grid2.coords ⟨0, by decide⟩)]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  dsimp only [dat3]
  iframe
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.RegProj3Val.lean ====
import proofs.«421506_j68049461838612_3_alg».proof.Proof.KI.RegProj3
import proofs.«421506_j68049461838612_3_alg».proof.Proof.KI.RegVal

noncomputable section

namespace Cert.KernelIdeal.Fr

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

def proj3 (a0 a1 : S100000x64.Idx → EReal) (a2 : S128x64.Idx → EReal) (a3 : S1x64.Idx → EReal) (a4 : S64x64.Idx → EReal) (a5 : S1x64.Idx → EReal) :
    S100000x64.Idx → EReal := fun i => projRow (fun q => a0 (ix2 (i 0) q)) (fun q => a1 (ix2 (i 0) q)) a2 a3 a4 a5 (i 1)

theorem proj3_apply (a0 a1 : S100000x64.Idx → EReal) (a2 : S128x64.Idx → EReal) (a3 : S1x64.Idx → EReal) (a4 : S64x64.Idx → EReal) (a5 : S1x64.Idx → EReal)
    (d : Fin 100000) (o : Fin 64) :
    proj3 a0 a1 a2 a3 a4 a5 (ValueIdx.ix2 d o)
      = (∑ k : Fin 64,
            max ((∑ q : Fin 128, (if h : q.val < 64 then a0 (ValueIdx.ix2 d ⟨q.val, h⟩) else a1 (ValueIdx.ix2 d ⟨q.val - 64, by omega⟩)) * a2 (ValueIdx.ix2 q k))
                  + a3 (ValueIdx.ix2 0 k)) 0
              * a4 (ValueIdx.ix2 k o))
        + a5 (ValueIdx.ix2 0 o) := rfl

theorem idx3 : ∀ t : Fin cfg3.N,
      win3_0.index t (0 : Fin 2) = t.val ∧ win3_0.index t (1 : Fin 2) = 0 ∧ win3_1.index t (0 : Fin 2) = t.val ∧ win3_1.index t (1 : Fin 2) = 0
    ∧ (∀ a : Fin 2, win3_2.index t a = 0) ∧ (∀ a : Fin 2, win3_3.index t a = 0) ∧ (∀ a : Fin 2, win3_4.index t a = 0) ∧ (∀ a : Fin 2, win3_5.index t a = 0)
    ∧ win3_6.index t (0 : Fin 2) = t.val ∧ win3_6.index t (1 : Fin 2) = 0 :=
  (by decide +kernel : ∀ t : Fin grid3.N, _)

abbrev G3 (c : Dev nD) : S100000x64.Idx → EReal :=
  proj3 (V c main_v14) (V c main_v86) (V c main_v92) (V c main_v94) (V c main_v93) (V c main_v95)

/-- The stored block at point `t` is block `t` of `G3`. -/
theorem flushed3_eq (c : Dev nD) (t : Fin cfg3.N) :
    (dat3 (F := Ideal) V c).flushed 6 t = ((cfg3.win 6).blk t).view.read (Elt Ideal) (G3 V c) := by
  show (cfg3.win 6).cut (grid3.coords t) ((dat3 (F := Ideal) V c).after 6 t) = _
  rw [after3_6]
  unfold out3
  rw [View.canon_unit_zero zeros2]
  simp only [View.ld_unit_zero (S := S5000x64) zeros2, View.ld_unit_zero (S := S128x64) zeros2, View.ld_unit_zero (S := S1x64) zeros2, View.ld_unit_zero (S := S64x64) zeros2]
  obtain ⟨e00, e01, e10, e11, e2, e3, e4, e5, e60, e61⟩ := idx3 t
  funext j
  show _ = G3 V c (((cfg3.win 6).blk t).view.emb j)
  refine (congrArg _ (eq_ix2 j)).trans (pay_apply _ _ _ _ _ _ (j 0) (j 1) _ _ _ _ _ _ _ (fun q => congrArg (V c main_v14) (Shape.idx_ext₂ ?_ ?_)) (fun q => congrArg (V c main_v86) (Shape.idx_ext₂ ?_ ?_))
    (funext fun x => congrArg (V c main_v92) (funext fun a => Fin.ext (win3_2.rect_emb_val_of_index_zero t a (e2 a) x)))
    (funext fun x => congrArg (V c main_v94) (funext fun a => Fin.ext (win3_3.rect_emb_val_of_index_zero t a (e3 a) x)))
    (funext fun x => congrArg (V c main_v93) (funext fun a => Fin.ext (win3_4.rect_emb_val_of_index_zero t a (e4 a) x)))
    (funext fun x => congrArg (V c main_v95) (funext fun a => Fin.ext (win3_5.rect_emb_val_of_index_zero t a (e5 a) x))) (Fin.ext ?_))
  · show win3_0.index t (0 : Fin 2) * 5000 + 1 * (j 0).val = win3_6.index t (0 : Fin 2) * 5000 + 1 * (j 0).val; omega
  · show win3_0.index t (1 : Fin 2) * 64 + 1 * q.val = q.val; omega
  · show win3_1.index t (0 : Fin 2) * 5000 + 1 * (j 0).val = win3_6.index t (0 : Fin 2) * 5000 + 1 * (j 0).val; omega
  · show win3_1.index t (1 : Fin 2) * 64 + 1 * q.val = q.val; omega
  · show (j 1).val = win3_6.index t (1 : Fin 2) * 64 + 1 * (j 1).val; omega

/-- Every row of the result array is in the block of the point of its row block. -/
theorem cover3 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N * 5000 = 100000 := by rw [show cfg3.N = grid3.N from rfl, N_3]
  obtain ⟨t, ht⟩ : ∃ t : Fin cfg3.N, t.val = (i 0).val / 5000 := ⟨⟨_, by omega⟩, rfl⟩
  obtain ⟨-, -, -, -, -, -, -, -, e0, e1⟩ := idx3 t
  refine ⟨t, flush3_6 t, ?_⟩
  show i ∈ ((View.whole main_v96).slice (win3_6.rect t)).set
  rw [View.set_slice_whole, Rect.mem_set_unit]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

theorem final3 (c : Dev nD) (d : Fin 100000) (o : Fin 64) :
    ((dat3 (F := Ideal) V c).arrAt 6 cfg3.N : S100000x64.Idx → EReal) (ValueIdx.ix2 d o)
      = proj3 (V c main_v14) (V c main_v86) (V c main_v92) (V c main_v94) (V c main_v93) (V c main_v95) (ValueIdx.ix2 d o) :=
  congrFun ((dat3 (F := Ideal) V c).arrAt_eq_of_cover 6 (G3 V c) (fun t _ => flushed3_eq V c t) cover3) _

end Cert.KernelIdeal.Fr

end
-- ==== Proof.KI.Run.lean ====
import proofs.«421506_j68049461838612_3_alg».proof.Proof.Gen.KernelIdeal.Launch
import proofs.«421506_j68049461838612_3_alg».proof.Proof.Gen.KernelIdeal.Skeleton
import proofs.«421506_j68049461838612_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«421506_j68049461838612_3_alg».proof.Proof.KI.RegAcc0
import proofs.«421506_j68049461838612_3_alg».proof.Proof.KI.RegAcc1
import proofs.«421506_j68049461838612_3_alg».proof.Proof.KI.RegProj2
import proofs.«421506_j68049461838612_3_alg».proof.Proof.KI.RegProj3

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem not_arr {gr W : Nat} {win : Fin W → Pipeline.WinSpec sig gr} {b : Ref sig .tc} (hb : b ∉ Finset.univ.image (Pipeline.arrRef win)) :
    ∀ w, Pipeline.arrRef win w ≠ b := fun w e => hb (Finset.mem_image.mpr ⟨w, Finset.mem_univ _, e⟩)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b

abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b

abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxRecDepth 65536 in
set_option maxHeartbeats 4000000 in
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m ρ c) ∗ ∃ r, prngReg c r)

theorem toΦA {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ Pipeline.ΦA win c := by
  unfold Pipeline.ΦA; iintro ⟨Hp, -, Hr⟩; iframe

theorem ofΦA {gr W : Nat} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA; iintro ⟨Hr, Hp⟩; iframe

/-- One kernel region as a step of the program's run, from the buffer contents at its entry to those at its exit. -/
def regOf (p : Fin 4) (lf : Pipeline.LaunchFacts (nD := nD) (τ := τ) cfgs p)
    (hbody : ∀ c, Pipeline.BodyObligationLoose (pdats m ρ p c) defs₀ 𝒱₀ () Set.univ) (W W' : Dev nD → Valuation τ sig (Elt F))
    (post : Dev nD → sProp 𝕄)
    (hpost : ∀ c : Dev nD, iprop(StableHlo.held (c : Thread nD τ) (Pipeline.ucRefs τ sig) (W' c) ∗ R c) ⊢ post c)
    (hq : ∀ c w, (pdats m ρ p c).q w = fullShare) (hK : (pcfgs (F := F) p).pre.K = 0)
    (ho : ∀ c t, (pdats m ρ p c).owed t = 0) (hr : ∀ c t, (pdats m ρ p c).recorded t = Set.univ)
    (hA : ∀ c w, (pdats m ρ p c).A w = W c (Pipeline.arrRef (cfgs p).spec w))
    (hF : ∀ c w, (pdats m ρ p c).arrAt w (cfgs p).N = W' c (Pipeline.arrRef (cfgs p).spec w))
    (hrest : ∀ c b, b ∉ Finset.univ.image (Pipeline.arrRef (cfgs p).spec) → W' c (Proc.devRef .tc b) = W c (Proc.devRef .tc b))
    (hin : ∀ c, Pipeline.ΦA (cfgs p).spec c ⊢ (pdats m ρ p c).Φ 0)
    (hout : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p ho
  pre c := iprop(StableHlo.held (c : Thread nD τ) (Pipeline.ucRefs τ sig) (W c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    haveI : IsEmpty (Fin (pcfgs (F := F) p).pre.K) := by rw [hK]; infer_instance
    rw [Pipeline.ownSems0_none]
    iintro ⟨⟨Hub, Hp, HO⟩, -, -⟩
    ihave H := hsplit $$ Hub
    icases H with ⟨Ha, Hrest⟩
    imodintro
    iframe Ha Hp Hrest
    isplitr; · unfold Pipeline.prefHeld; rw [Finset.univ_eq_empty, BI.bigSep_empty]; iempintro
    unfold Pipeline.Dat.owesAt Pipeline.owesWithin
    rw [ho]
    icases HO with ⟨%Wo, HO⟩; iexists Wo; isplitr; · ipureintro; exact fun _ _ => Or.inl (by rw [hr]; trivial)
    iexact HO
  hin c := (toΦA _ c _).trans (hin c)
  hout c := by rw [Pipeline.ownSems0_none]; exact (hout c).trans (ofΦA _ c)
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => W c b) (fun b => W' c b)
      ((pdats m ρ p c).arrAt · _) (hF c) (hrest c)
    rw [Pipeline.unscopedBufs_held] at hjoin
    iintro ⟨Ha, HO, HY, Hrest⟩
    imodintro
    iapply hpost
    isplitl [Ha Hrest]
    · iapply hjoin; isplitl [Ha] <;> iassumption
    isplitl [HY]; · iexact HY
    unfold Pipeline.Dat.owesAt Pipeline.owesWithin
    rw [ho]
    icases HO with ⟨%Wo, -, HO⟩; iexists Wo; iexact HO

def reg0 : Pipeline.RegionSeg (pcfgs (F := F)) adm (pdats m ρ) () defs₀ 𝒱₀ L lv 0 :=
  regOf m ρ 0 launch0 (fun c => (body_obligation0 (V1 m ρ) c).loose) (W1 m ρ) (W2 m ρ)
    (fun c => iprop(StableHlo.held (c : Thread nD τ) (Pipeline.ucRefs τ sig) (W2 m ρ c) ∗ R c)) (fun _ => .rfl)
    (fun _ _ => rfl) rfl (fun _ _ => rfl) (fun _ _ => rfl) (fun _ _ => rfl) (fun c w => (W2_arr m ρ c w).symm)
    (fun c b hb => W2_of_ne m ρ c b (not_arr hb)) (hin0 (V1 m ρ)) (hout0 (V1 m ρ))

def reg1 : Pipeline.RegionSeg (pcfgs (F := F)) adm (pdats m ρ) () defs₀ 𝒱₀ L lv 1 :=
  regOf m ρ 1 launch1 (fun c => (body_obligation1 (V2 m ρ) c).loose) (W2 m ρ) (W3 m ρ)
    (fun c => iprop(StableHlo.held (c : Thread nD τ) (Pipeline.ucRefs τ sig) (W3 m ρ c) ∗ R c)) (fun _ => .rfl)
    (fun _ _ => rfl) rfl (fun _ _ => rfl) (fun _ _ => rfl) (fun _ _ => rfl) (fun c w => (W3_arr m ρ c w).symm)
    (fun c b hb => W3_of_ne m ρ c b (not_arr hb)) (hin1 (V2 m ρ)) (hout1 (V2 m ρ))

def reg2 : Pipeline.RegionSeg (pcfgs (F := F)) adm (pdats m ρ) () defs₀ 𝒱₀ L lv 2 :=
  regOf m ρ 2 launch2 (fun c => (body_obligation2 (V4 m ρ) c).loose) (W4 m ρ) (W5 m ρ)
    (fun c => iprop(StableHlo.held (c : Thread nD τ) (Pipeline.ucRefs τ sig) (W5 m ρ c) ∗ R c)) (fun _ => .rfl)
    (fun _ _ => rfl) rfl (fun _ _ => rfl) (fun _ _ => rfl) (fun _ _ => rfl) (fun c w => (W5_arr m ρ c w).symm)
    (fun c b hb => W5_of_ne m ρ c b (not_arr hb)) (fun _ => .rfl) (fun _ => .rfl)

def reg3 : Pipeline.RegionSeg (pcfgs (F := F)) adm (pdats m ρ) () defs₀ 𝒱₀ L lv 3 :=
  regOf m ρ 3 launch3 (fun c => (body_obligation3 (V6 m ρ) c).loose) (W6 m ρ) (W7 m ρ)
    (fun c => iprop(Tₙ m ρ c ∗ ∃ W, owes (c : Thread nD τ) (0 : CellTallies nD τ sig Unit) W)) (fun c => by
      iintro ⟨Hh, Hp, HO⟩
      isplitl [Hh Hp]; · isplitl [Hh] <;> iassumption
      iexact HO)
    (fun _ _ => rfl) rfl (fun _ _ => rfl) (fun _ _ => rfl) (fun _ _ => rfl) (fun c w => (W7_arr m ρ c w).symm)
    (fun c b hb => W7_of_ne m ρ c b (not_arr hb)) (fun _ => .rfl) (fun _ => .rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
set_option maxRecDepth 65536 in
theorem main_run (c : Dev nD) : main (F := F) c = Pipeline.Seg.run (segs m ρ) := (main_chain c).trans (by chain_rfl)

/-- The whole program, stretch by stretch and region by region: it ends, and every buffer holds the last step's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Fr

end
-- ==== Proof.KI.Keep.lean ====
import proofs.«421506_j68049461838612_3_alg».proof.Proof.KI.Run

noncomputable section

namespace Cert.KernelIdeal.Fr

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

def mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

theorem mainArgs_low : ∀ b ∈ mainArgs, b.idx.val < 21 := by decide

theorem ne_of_low {y b : Ref sig .tc} (hy : 21 ≤ y.idx.val) (hb : b.idx.val < 21) : y ≠ b := fun e => by
  subst e; omega

/-- Every host operation and every region writes only buffers of index 21 or more; the arguments are the buffers below 21. -/
theorem after_low (ops : List (HloOp τ sig (Elt F))) (V : Valuation τ sig (Elt F))
    (h : ops.Forall fun op => ∃ y : Ref sig .tc, op.writes = {(Proc.devRef .tc y : DevRef τ sig)} ∧ 21 ≤ y.idx.val)
    (b : Ref sig .tc) (hb : b.idx.val < 21) :
    StableHlo.after ops V (Proc.devRef .tc b) = V (Proc.devRef .tc b) :=
  StableHlo.after_of_forall_not_mem ops V fun op hop hmem => by
    obtain ⟨y, hy, h21⟩ := (List.forall_iff_forall_mem.mp h) op hop
    rw [hy, Finset.mem_singleton] at hmem
    exact ne_of_low h21 hb (Proc.devRef_injective _ hmem).symm

set_option maxRecDepth 65536 in
set_option maxHeartbeats 4000000 in
theorem hostOps0_high : (hostOps0 : List (HloOp τ sig (Elt F))).Forall fun op =>
    ∃ y : Ref sig .tc, op.writes = {(Proc.devRef .tc y : DevRef τ sig)} ∧ 21 ≤ y.idx.val := by
  simp only [List.Forall]
  repeat' apply And.intro
  all_goals exact ⟨_, rfl, by decide⟩

theorem hostOps2_high : (hostOps2 : List (HloOp τ sig (Elt F))).Forall fun op =>
    ∃ y : Ref sig .tc, op.writes = {(Proc.devRef .tc y : DevRef τ sig)} ∧ 21 ≤ y.idx.val :=
  ⟨⟨_, rfl, by decide⟩, ⟨_, rfl, by decide⟩, ⟨_, rfl, by decide⟩, ⟨_, rfl, by decide⟩⟩

theorem hostOps3_high : (hostOps3 : List (HloOp τ sig (Elt F))).Forall fun op =>
    ∃ y : Ref sig .tc, op.writes = {(Proc.devRef .tc y : DevRef τ sig)} ∧ 21 ≤ y.idx.val :=
  ⟨⟨_, rfl, by decide⟩, ⟨_, rfl, by decide⟩, ⟨_, rfl, by decide⟩, ⟨_, rfl, by decide⟩⟩

theorem arr0_high : ∀ w, 21 ≤ (Pipeline.arrRef spec0 w).idx.val := by decide
theorem arr1_high : ∀ w, 21 ≤ (Pipeline.arrRef spec1 w).idx.val := by decide
theorem arr2_high : ∀ w, 21 ≤ (Pipeline.arrRef spec2 w).idx.val := by decide
theorem arr3_high : ∀ w, 21 ≤ (Pipeline.arrRef spec3 w).idx.val := by decide

theorem W3_low (c : Dev nD) (b : Ref sig .tc) (hb : b.idx.val < 21) :
    W3 m ρ c (Proc.devRef .tc b) = W0 m ρ c (Proc.devRef .tc b) :=
  calc W3 m ρ c (Proc.devRef .tc b)
    _ = W2 m ρ c (Proc.devRef .tc b) := W3_of_ne m ρ c b fun w => ne_of_low (arr1_high w) hb
    _ = W1 m ρ c (Proc.devRef .tc b) := W2_of_ne m ρ c b fun w => ne_of_low (arr0_high w) hb
    _ = W0 m ρ c (Proc.devRef .tc b) := after_low hostOps0 _ hostOps0_high b hb

theorem W5_low (c : Dev nD) (b : Ref sig .tc) (hb : b.idx.val < 21) :
    W5 m ρ c (Proc.devRef .tc b) = W0 m ρ c (Proc.devRef .tc b) :=
  calc W5 m ρ c (Proc.devRef .tc b)
    _ = W4 m ρ c (Proc.devRef .tc b) := W5_of_ne m ρ c b fun w => ne_of_low (arr2_high w) hb
    _ = W3 m ρ c (Proc.devRef .tc b) := after_low hostOps2 _ hostOps2_high b hb
    _ = W0 m ρ c (Proc.devRef .tc b) := W3_low m ρ c b hb

theorem W7_low (c : Dev nD) (b : Ref sig .tc) (hb : b.idx.val < 21) :
    W7 m ρ c (Proc.devRef .tc b) = W0 m ρ c (Proc.devRef .tc b) :=
  calc W7 m ρ c (Proc.devRef .tc b)
    _ = W6 m ρ c (Proc.devRef .tc b) := W7_of_ne m ρ c b fun w => ne_of_low (arr3_high w) hb
    _ = W5 m ρ c (Proc.devRef .tc b) := after_low hostOps3 _ hostOps3_high b hb
    _ = W0 m ρ c (Proc.devRef .tc b) := W5_low m ρ c b hb

theorem W3_arg (c : Dev nD) (b : Ref sig .tc) (hb : b ∈ mainArgs) :
    W3 m ρ c (Proc.devRef .tc b) = W0 m ρ c (Proc.devRef .tc b) := W3_low m ρ c b (mainArgs_low b hb)
theorem W5_arg (c : Dev nD) (b : Ref sig .tc) (hb : b ∈ mainArgs) :
    W5 m ρ c (Proc.devRef .tc b) = W0 m ρ c (Proc.devRef .tc b) := W5_low m ρ c b (mainArgs_low b hb)

def wr2 : List (Ref sig .tc) := [main_v87, main_v88, main_v89, main_v90]
def wr3 : List (Ref sig .tc) := [main_v92, main_v93, main_v94, main_v95]

theorem sub_of_mem {y : Ref sig .tc} {l : List (Ref sig .tc)} (h : y ∈ l) :
    ({(Proc.devRef .tc y : DevRef τ sig)} : Finset (DevRef τ sig)) ⊆ (l.map (Proc.devRef (τ := τ) .tc)).toFinset :=
  Finset.singleton_subset_iff.2 (List.mem_toFinset.2 (List.mem_map.2 ⟨y, h, rfl⟩))

theorem hostOps2_writes : (hostOps2 : List (HloOp τ sig (Elt F))).Forall fun op =>
    op.writes ⊆ (wr2.map (Proc.devRef (τ := τ) .tc)).toFinset :=
  ⟨sub_of_mem (by decide), sub_of_mem (by decide), sub_of_mem (by decide), sub_of_mem (by decide)⟩
theorem hostOps3_writes : (hostOps3 : List (HloOp τ sig (Elt F))).Forall fun op =>
    op.writes ⊆ (wr3.map (Proc.devRef (τ := τ) .tc)).toFinset :=
  ⟨sub_of_mem (by decide), sub_of_mem (by decide), sub_of_mem (by decide), sub_of_mem (by decide)⟩

/-- Each result, and each region's input, traced back to the step that last wrote it. -/
theorem W7_v91 (c : Dev nD) : W7 m ρ c (Proc.devRef .tc main_v91) = (dat2 (V4 m ρ) c).arrAt 6 cfg2.N :=
  calc W7 m ρ c (Proc.devRef .tc main_v91)
    _ = W6 m ρ c (Proc.devRef .tc main_v91) := W7_of_ne m ρ c main_v91 (by decide)
    _ = W5 m ρ c (Proc.devRef .tc main_v91) := StableHlo.after_of_writes_sub hostOps3 _ hostOps3_writes (by decide)
    _ = (dat2 (V4 m ρ) c).arrAt 6 cfg2.N := W5_arr m ρ c 6

theorem W7_v96 (c : Dev nD) : W7 m ρ c (Proc.devRef .tc main_v96) = (dat3 (V6 m ρ) c).arrAt 6 cfg3.N :=
  W7_arr m ρ c 6

theorem V4_v29 (c : Dev nD) : V4 m ρ c main_v29 = W1 m ρ c (Proc.devRef .tc main_v29) :=
  calc V4 m ρ c main_v29
    _ = W3 m ρ c (Proc.devRef .tc main_v29) := StableHlo.after_of_writes_sub hostOps2 _ hostOps2_writes (by decide)
    _ = W2 m ρ c (Proc.devRef .tc main_v29) := W3_of_ne m ρ c main_v29 (by decide)
    _ = W1 m ρ c (Proc.devRef .tc main_v29) := W2_of_ne m ρ c main_v29 (by decide)

theorem V4_v85 (c : Dev nD) : V4 m ρ c main_v85 = (dat0 (V1 m ρ) c).arrAt 2 cfg0.N :=
  calc V4 m ρ c main_v85
    _ = W3 m ρ c (Proc.devRef .tc main_v85) := StableHlo.after_of_writes_sub hostOps2 _ hostOps2_writes (by decide)
    _ = W2 m ρ c (Proc.devRef .tc main_v85) := W3_of_ne m ρ c main_v85 (by decide)
    _ = (dat0 (V1 m ρ) c).arrAt 2 cfg0.N := W2_arr m ρ c 2

theorem V6_v14 (c : Dev nD) : V6 m ρ c main_v14 = W1 m ρ c (Proc.devRef .tc main_v14) :=
  calc V6 m ρ c main_v14
    _ = W5 m ρ c (Proc.devRef .tc main_v14) := StableHlo.after_of_writes_sub hostOps3 _ hostOps3_writes (by decide)
    _ = W4 m ρ c (Proc.devRef .tc main_v14) := W5_of_ne m ρ c main_v14 (by decide)
    _ = W3 m ρ c (Proc.devRef .tc main_v14) := StableHlo.after_of_writes_sub hostOps2 _ hostOps2_writes (by decide)
    _ = W2 m ρ c (Proc.devRef .tc main_v14) := W3_of_ne m ρ c main_v14 (by decide)
    _ = W1 m ρ c (Proc.devRef .tc main_v14) := W2_of_ne m ρ c main_v14 (by decide)

theorem V6_v86 (c : Dev nD) : V6 m ρ c main_v86 = (dat1 (V2 m ρ) c).arrAt 2 cfg1.N :=
  calc V6 m ρ c main_v86
    _ = W5 m ρ c (Proc.devRef .tc main_v86) := StableHlo.after_of_writes_sub hostOps3 _ hostOps3_writes (by decide)
    _ = W4 m ρ c (Proc.devRef .tc main_v86) := W5_of_ne m ρ c main_v86 (by decide)
    _ = W3 m ρ c (Proc.devRef .tc main_v86) := StableHlo.after_of_writes_sub hostOps2 _ hostOps2_writes (by decide)
    _ = (dat1 (V2 m ρ) c).arrAt 2 cfg1.N := W3_arr m ρ c 2

theorem V2_v82 (c : Dev nD) : V2 m ρ c main_v82 = W1 m ρ c (Proc.devRef .tc main_v82) :=
  W2_of_ne m ρ c main_v82 (by decide)
theorem V2_v84 (c : Dev nD) : V2 m ρ c main_v84 = W1 m ρ c (Proc.devRef .tc main_v84) :=
  W2_of_ne m ρ c main_v84 (by decide)

end Cert.KernelIdeal.Fr

end
-- ==== Proof.Spec.lean ====
import Mathlib.Data.EReal.Basic
import Mathlib.Data.EReal.Operations
import Mathlib.Data.EReal.Inv
import Mathlib.Algebra.BigOperators.Ring.Finset
import Mathlib.Algebra.BigOperators.Fin
import Mathlib.Algebra.BigOperators.Field

noncomputable section

namespace Cert.Gcmc

open Finset

variable {E Ns Nd : ℕ}

def cnt (dst : Fin E → Fin Nd) (d : Fin Nd) : EReal := ∑ e : Fin E, if dst e = d then (1 : EReal) else 0

private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private def cntR (dst : Fin E → Fin Nd) (d : Fin Nd) : ℝ := ∑ e : Fin E, if dst e = d then (1 : ℝ) else 0

private theorem cnt_eq (dst : Fin E → Fin Nd) (d : Fin Nd) : cnt dst d = ((cntR dst d : ℝ) : EReal) := by
  unfold cnt cntR
  rw [coe_sum]
  refine Finset.sum_congr rfl fun e _ => ?_
  split_ifs <;> simp

private theorem one_le_cntR {dst : Fin E → Fin Nd} {d : Fin Nd} {e : Fin E} (he : dst e = d) : 1 ≤ cntR dst d := by
  unfold cntR
  calc (1 : ℝ) = if dst e = d then (1 : ℝ) else 0 := by rw [if_pos he]
    _ ≤ ∑ e' : Fin E, if dst e' = d then (1 : ℝ) else 0 :=
        Finset.single_le_sum (f := fun e' => if dst e' = d then (1 : ℝ) else 0)
          (fun e' _ => by split_ifs <;> norm_num) (Finset.mem_univ e)

private theorem coe_max_one (x : ℝ) : max (x : EReal) 1 = ((max x 1 : ℝ) : EReal) := by
  rw [← EReal.coe_one]
  exact (EReal.coe_strictMono.monotone.map_max).symm

def neighK (hs : Fin Ns → Fin 64 → EReal) (Wr : Fin 6 → Fin 64 → Fin 64 → EReal) (src : Fin E → Fin Ns)
    (dst : Fin E → Fin Nd) (rt : Fin E → Fin 6) (d : Fin Nd) (i : Fin 64) : EReal :=
  ∑ r : Fin 6, ∑ j : Fin 64,
    (∑ e : Fin E, if rt e = r ∧ dst e = d then hs (src e) j / cnt dst (dst e) else 0) * Wr r i j

def neighR (hs : Fin Ns → Fin 64 → EReal) (Wr : Fin 6 → Fin 64 → Fin 64 → EReal) (src : Fin E → Fin Ns)
    (dst : Fin E → Fin Nd) (rt : Fin E → Fin 6) (d : Fin Nd) (i : Fin 64) : EReal :=
  (∑ e : Fin E, if dst e = d then ∑ j : Fin 64, Wr (rt e) i j * hs (src e) j else 0) / max (cnt dst d) 1

theorem neigh_eq (hs : Fin Ns → Fin 64 → EReal) (Wr : Fin 6 → Fin 64 → Fin 64 → EReal) (src : Fin E → Fin Ns)
    (dst : Fin E → Fin Nd) (rt : Fin E → Fin 6)
    (hhs : ∀ n j, ∃ x : ℝ, hs n j = (x : EReal)) (hWr : ∀ r i j, ∃ x : ℝ, Wr r i j = (x : EReal))
    (d : Fin Nd) (i : Fin 64) :
    neighK hs Wr src dst rt d i = neighR hs Wr src dst rt d i := by
  classical
  choose h hh using hhs
  choose w hw using hWr
  set C : ℝ := cntR dst d with hC
  have hL : neighK hs Wr src dst rt d i =
      ((∑ r : Fin 6, ∑ j : Fin 64,
          (∑ e : Fin E, if rt e = r ∧ dst e = d then h (src e) j / C else 0) * w r i j : ℝ) : EReal) := by
    unfold neighK
    rw [coe_sum]
    refine Finset.sum_congr rfl fun r _ => ?_
    rw [coe_sum]
    refine Finset.sum_congr rfl fun j _ => ?_
    rw [EReal.coe_mul, coe_sum, hw]
    congr 1
    refine Finset.sum_congr rfl fun e _ => ?_
    by_cases hp : rt e = r ∧ dst e = d
    · rw [if_pos hp, if_pos hp, hh, cnt_eq, hp.2, EReal.coe_div]
    · rw [if_neg hp, if_neg hp, EReal.coe_zero]
  have hR : neighR hs Wr src dst rt d i =
      (((∑ e : Fin E, if dst e = d then ∑ j : Fin 64, w (rt e) i j * h (src e) j else 0) / max C 1 : ℝ) : EReal) := by
    unfold neighR
    rw [EReal.coe_div, cnt_eq, coe_max_one, coe_sum]
    congr 1
    refine Finset.sum_congr rfl fun e _ => ?_
    by_cases hp : dst e = d
    · rw [if_pos hp, if_pos hp, coe_sum]
      refine Finset.sum_congr rfl fun j _ => ?_
      rw [EReal.coe_mul, hw, hh]
    · rw [if_neg hp, if_neg hp, EReal.coe_zero]
  have key : ∀ e : Fin E,
      (∑ r : Fin 6, ∑ j : Fin 64, (if rt e = r ∧ dst e = d then h (src e) j / C else 0) * w r i j)
        = (if dst e = d then ∑ j : Fin 64, w (rt e) i j * h (src e) j else 0) / max C 1 := by
    intro e
    by_cases hp : dst e = d
    · have hC1 : max C 1 = C := max_eq_left (one_le_cntR hp)
      rw [if_pos hp, hC1, Finset.sum_div, Finset.sum_eq_single (rt e)]
      · refine Finset.sum_congr rfl fun j _ => ?_
        rw [if_pos ⟨rfl, hp⟩]
        ring
      · intro r _ hr
        refine Finset.sum_eq_zero fun j _ => ?_
        rw [if_neg (fun hq => hr hq.1.symm), zero_mul]
      · intro hne
        exact absurd (Finset.mem_univ _) hne
    · rw [if_neg hp, zero_div]
      refine Finset.sum_eq_zero fun r _ => Finset.sum_eq_zero fun j _ => ?_
      rw [if_neg (fun hq => hp hq.2), zero_mul]
  rw [hL, hR]
  congr 1
  rw [Finset.sum_div]
  simp only [← key, Finset.sum_mul]
  exact (Finset.sum_congr rfl fun r _ => Finset.sum_comm).trans Finset.sum_comm

def proj {N : ℕ} (hd hn : Fin N → Fin 64 → EReal) (Wl : Fin 64 → Fin 128 → EReal) (bl : Fin 64 → EReal)
    (Wp : Fin 64 → Fin 64 → EReal) (bp : Fin 64 → EReal) (d : Fin N) (o : Fin 64) : EReal :=
  (∑ k : Fin 64,
      max ((∑ q : Fin 128, (if h : q.val < 64 then hd d ⟨q.val, h⟩ else hn d ⟨q.val - 64, by omega⟩) * Wl k q) + bl k) 0
        * Wp o k) + bp o

end Cert.Gcmc

end
-- ==== Proof.Readers.lean ====
import Idealize.ShloMosaic.PureOps.Ideal
import Idealize.ShloMosaic.Lib.ValueIdx
import proofs.«421506_j68049461838612_3_alg».proof.Proof.Spec

noncomputable section

namespace Cert.Gcmc

open Idealize.ShloMosaic Idealize.ShloMosaic.ValueIdx

abbrev V1 (n : ℕ) := (⟨1, ![n]⟩ : Shape).Idx → EReal
abbrev V2 (a b : ℕ) := (⟨2, ![a, b]⟩ : Shape).Idx → EReal
abbrev V3 (a b c : ℕ) := (⟨3, ![a, b, c]⟩ : Shape).Idx → EReal
abbrev I1 (n : ℕ) := IVec (⟨1, ![n]⟩ : Shape) 32

def wrapW (N : ℕ) (w : BitVec 32) : BitVec 32 := if w.toInt < 0 then w + BitVec.ofNat 32 N else w

def rowOf (N : ℕ) (hN : 0 < N) (w : BitVec 32) : Fin N := ⟨min (wrapW N w).toInt.toNat (N - 1), by omega⟩

theorem rowOf_val_of_range (N : ℕ) (hN : 0 < N) (w : BitVec 32) (h0 : 0 ≤ w.toInt) (h1 : w.toInt < (N : ℤ)) :
    ((rowOf N hN w).val : ℤ) = w.toInt := by
  have hw : wrapW N w = w := by unfold wrapW; rw [if_neg (by omega)]
  show ((min (wrapW N w).toInt.toNat (N - 1) : ℕ) : ℤ) = w.toInt
  rw [hw]
  omega

structure Args where
  uid : I1 100000
  iid : I1 50000
  gid : I1 100000
  gen : I1 50000
  eu : I1 1600000
  ei : I1 1600000
  rt : I1 1600000
  uemb : V2 500000 64
  iemb : V2 200000 64
  gemb : V2 3 64
  nemb : V2 20 64
  Wrw : V3 6 64 64
  Wrwb : V3 6 64 64
  Ww : V2 64 128
  bw : V1 64
  Wwb : V2 64 128
  bwb : V1 64
  Wf : V2 64 64
  bf : V1 64
  Vf : V2 64 64
  bv : V1 64

namespace Args

variable (a : Args)

def hu (n : Fin 100000) (j : Fin 64) : EReal :=
  a.uemb (ix2 (rowOf 500000 (by decide) (a.uid (ix1 n))) j) + a.gemb (ix2 (rowOf 3 (by decide) (a.gid (ix1 n))) j)

def hi (n : Fin 50000) (j : Fin 64) : EReal :=
  a.iemb (ix2 (rowOf 200000 (by decide) (a.iid (ix1 n))) j) + a.nemb (ix2 (rowOf 20 (by decide) (a.gen (ix1 n))) j)

def euF (e : Fin 1600000) : Fin 100000 := rowOf 100000 (by decide) (a.eu (ix1 e))
def eiF (e : Fin 1600000) : Fin 50000 := rowOf 50000 (by decide) (a.ei (ix1 e))
def rtF (e : Fin 1600000) : Fin 6 := rowOf 6 (by decide) (a.rt (ix1 e))
def WrwF (r : Fin 6) (i j : Fin 64) : EReal := a.Wrw (ix3 r i j)
def WrwbF (r : Fin 6) (i j : Fin 64) : EReal := a.Wrwb (ix3 r i j)
def WwF (k : Fin 64) (q : Fin 128) : EReal := a.Ww (ix2 k q)
def WwbF (k : Fin 64) (q : Fin 128) : EReal := a.Wwb (ix2 k q)
def bwF (k : Fin 64) : EReal := a.bw (ix1 k)
def bwbF (k : Fin 64) : EReal := a.bwb (ix1 k)
def WfF (o k : Fin 64) : EReal := a.Wf (ix2 o k)
def VfF (o k : Fin 64) : EReal := a.Vf (ix2 o k)
def bfF (o : Fin 64) : EReal := a.bf (ix1 o)
def bvF (o : Fin 64) : EReal := a.bv (ix1 o)

def userOutK (d : Fin 100000) (o : Fin 64) : EReal :=
  proj a.hu (neighK a.hi a.WrwbF a.eiF a.euF a.rtF) a.WwbF a.bwbF a.WfF a.bfF d o
def itemOutK (d : Fin 50000) (o : Fin 64) : EReal :=
  proj a.hi (neighK a.hu a.WrwF a.euF a.eiF a.rtF) a.WwF a.bwF a.VfF a.bvF d o

def userOutR (d : Fin 100000) (o : Fin 64) : EReal :=
  proj a.hu (neighR a.hi a.WrwbF a.eiF a.euF a.rtF) a.WwbF a.bwbF a.WfF a.bfF d o
def itemOutR (d : Fin 50000) (o : Fin 64) : EReal :=
  proj a.hi (neighR a.hu a.WrwF a.euF a.eiF a.rtF) a.WwF a.bwF a.VfF a.bvF d o

structure Ok : Prop where
  eu0 : ∀ e : Fin 1600000, 0 ≤ (a.eu (ix1 e)).toInt
  eu1 : ∀ e : Fin 1600000, (a.eu (ix1 e)).toInt < 100000
  ei0 : ∀ e : Fin 1600000, 0 ≤ (a.ei (ix1 e)).toInt
  ei1 : ∀ e : Fin 1600000, (a.ei (ix1 e)).toInt < 50000
  rt0 : ∀ e : Fin 1600000, 0 ≤ (a.rt (ix1 e)).toInt
  rt1 : ∀ e : Fin 1600000, (a.rt (ix1 e)).toInt < 6
  uemb : ∀ i, ∃ x : ℝ, a.uemb i = (x : EReal)
  iemb : ∀ i, ∃ x : ℝ, a.iemb i = (x : EReal)
  gemb : ∀ i, ∃ x : ℝ, a.gemb i = (x : EReal)
  nemb : ∀ i, ∃ x : ℝ, a.nemb i = (x : EReal)
  Wrw : ∀ i, ∃ x : ℝ, a.Wrw i = (x : EReal)
  Wrwb : ∀ i, ∃ x : ℝ, a.Wrwb i = (x : EReal)

theorem real_add {p q : EReal} : (∃ x : ℝ, p = x) → (∃ y : ℝ, q = y) → ∃ z : ℝ, p + q = z
  | ⟨x, hx⟩, ⟨y, hy⟩ => ⟨x + y, by rw [hx, hy, EReal.coe_add]⟩

theorem hu_real (h : a.Ok) (n : Fin 100000) (j : Fin 64) : ∃ x : ℝ, a.hu n j = (x : EReal) :=
  real_add (h.uemb _) (h.gemb _)

theorem hi_real (h : a.Ok) (n : Fin 50000) (j : Fin 64) : ∃ x : ℝ, a.hi n j = (x : EReal) :=
  real_add (h.iemb _) (h.nemb _)

theorem out_eq (h : a.Ok) : a.userOutK = a.userOutR ∧ a.itemOutK = a.itemOutR :=
  ⟨congrArg (proj a.hu · a.WwbF a.bwbF a.WfF a.bfF) (funext₂ (neigh_eq _ _ _ _ _ (a.hi_real h) fun _ _ _ => h.Wrwb _)),
    congrArg (proj a.hi · a.WwF a.bwF a.VfF a.bvF) (funext₂ (neigh_eq _ _ _ _ _ (a.hu_real h) fun _ _ _ => h.Wrw _))⟩

end Args

end Cert.Gcmc

end
-- ==== Proof.KI.ArgsOf.lean ====
import proofs.«421506_j68049461838612_3_alg».proof.KernelIdeal
import proofs.«421506_j68049461838612_3_alg».proof.Proof.Readers

noncomputable section

namespace Cert.KernelIdeal.Fr

open Idealize.ShloMosaic Idealize.SL.Sem Cert.KernelIdeal

def argsOf (W : Valuation τ sig (Elt Ideal)) : Cert.Gcmc.Args where
  uid := W (Proc.devRef .tc main_arg0)
  iid := W (Proc.devRef .tc main_arg1)
  gid := W (Proc.devRef .tc main_arg2)
  gen := W (Proc.devRef .tc main_arg3)
  eu := W (Proc.devRef .tc main_arg4)
  ei := W (Proc.devRef .tc main_arg5)
  rt := W (Proc.devRef .tc main_arg6)
  uemb := W (Proc.devRef .tc main_arg7)
  iemb := W (Proc.devRef .tc main_arg8)
  gemb := W (Proc.devRef .tc main_arg9)
  nemb := W (Proc.devRef .tc main_arg10)
  Wrw := W (Proc.devRef .tc main_arg11)
  Wrwb := W (Proc.devRef .tc main_arg12)
  Ww := W (Proc.devRef .tc main_arg13)
  bw := W (Proc.devRef .tc main_arg14)
  Wwb := W (Proc.devRef .tc main_arg15)
  bwb := W (Proc.devRef .tc main_arg16)
  Wf := W (Proc.devRef .tc main_arg17)
  bf := W (Proc.devRef .tc main_arg18)
  Vf := W (Proc.devRef .tc main_arg19)
  bv := W (Proc.devRef .tc main_arg20)

end Cert.KernelIdeal.Fr

end
-- ==== Proof.LibGatherRows.lean ====
import Idealize.ShloMosaic.PureOps.Ideal
import Idealize.ShloMosaic.Lib.StableHlo.Predicate
import Idealize.ShloMosaic.Lib.IdealHost
import proofs.«421506_j68049461838612_3_alg».proof.Proof.Readers

noncomputable section

namespace Idealize.ShloMosaic.GatherRows

open Idealize.ShloMosaic Idealize.ShloMosaic.StableHlo.Predicate Idealize.ShloMosaic.ValueIdx Cert.Gcmc

private theorem ij_zero_eq_ixP {n : Nat} (p : Fin n) : ij p (0 : Fin 1) = ixP p := by
  funext b; match b with | ⟨0, _⟩ => rfl | ⟨1, _⟩ => rfl

private theorem siIdx_rows {s : Shape} {n m C : Nat} (d : GatherDims s ⟨2, ![n, m]⟩ ⟨2, ![n, C]⟩)
    (hoff : d.offsetDims = [1]) (hivd : d.indexVectorDim = 1) (k : Fin n) (q : Fin C)
    (c : Fin d.startIndexMap.length) (c' : Fin m) (hc : c.val = c'.val) :
    d.siIdx (ij k q) c = ij k c' := by
  funext b
  match b with
  | ⟨0, _⟩ =>
    unfold GatherDims.siIdx
    rw [dif_neg (by rw [hivd]; simp)]
    unfold GatherDims.siCoord
    apply Fin.ext
    simp only [Fin.val_cast]
    have e : ∀ X : Fin 2, X ∈ d.batchDims → ((ij k q : (⟨2, ![n, C]⟩ : Shape).Idx) X).val = k.val := fun X hX => by
      have hX0 : X = 0 := by
        simp only [GatherDims.batchDims, Shape.kept, hoff, List.mem_filter] at hX
        have := hX.2
        match X with
        | ⟨0, _⟩ => rfl
        | ⟨1, _⟩ => simp at this
      subst hX0; rfl
    exact e _ (List.getElem_mem _)
  | ⟨1, _⟩ =>
    unfold GatherDims.siIdx
    rw [dif_pos (by rw [hivd])]
    apply Fin.ext
    exact hc
/-- A collapsed operand axis the start index map names in position `c'`: the word in column `c'` of the table row, clamped. -/
private theorem coord_mapped {s : Shape} {n m C w : Nat} (d : GatherDims s ⟨2, ![n, m]⟩ ⟨2, ![n, C]⟩)
    (hoff : d.offsetDims = [1]) (hivd : d.indexVectorDim = 1) (hob : d.operandBatchingDims = [])
    (idx : IVec ⟨2, ![n, m]⟩ w) (k : Fin n) (q : Fin C) (a : Fin s.rank) (hcol : a ∈ d.collapsedSliceDims)
    (ha : a ∈ d.startIndexMap) (c' : Fin m) (hc : d.startIndexMap.idxOf a = c'.val) :
    d.start (ij k q) idx a + d.batchCoord (ij k q) a + d.offCoord (ij k q) a
      = min (idx (ij k c')).toInt.toNat (s.size a - d.sliceSizes a) := by
  rw [d.batchCoord_eq_zero _ _ (by rw [hob]; exact List.not_mem_nil),
    d.offCoord_eq_zero _ _ (fun h => ((d.mem_sKept _).mp h).1 hcol)]
  unfold GatherDims.start
  rw [dif_pos ha, siIdx_rows d hoff hivd k q _ c' hc]
  rfl

/-- A kept operand axis the start index map does not name: the result's offset coordinate. -/
private theorem coord_kept {s si : Shape} {n C w : Nat} (d : GatherDims s si ⟨2, ![n, C]⟩) (hoff : d.offsetDims = [1])
    (hob : d.operandBatchingDims = []) (idx : IVec si w) (k : Fin n) (q : Fin C) (a : Fin s.rank)
    (hcol : a ∉ d.collapsedSliceDims) (ha : a ∉ d.startIndexMap) :
    d.start (ij k q) idx a + d.batchCoord (ij k q) a + d.offCoord (ij k q) a = q.val := by
  have hnb : a ∉ d.operandBatchingDims := by rw [hob]; exact List.not_mem_nil
  rw [d.batchCoord_eq_zero _ _ hnb]
  unfold GatherDims.start GatherDims.offCoord
  rw [dif_neg ha, dif_pos ((d.mem_sKept _).mpr ⟨hcol, hnb⟩)]
  simp only [Nat.zero_add]
  have e : ∀ X : Fin 2, X ∈ d.offsetDims → ((ij k q : (⟨2, ![n, C]⟩ : Shape).Idx) X).val = q.val := fun X hX => by
    rw [hoff] at hX
    cases List.mem_singleton.mp hX
    rfl
  exact e _ (List.getElem_mem _)

theorem gather_rows_apply {α : Type} {R C n w : Nat} (d : GatherDims ⟨2, ![R, C]⟩ ⟨2, ![n, 1]⟩ ⟨2, ![n, C]⟩)
    (hoff : d.offsetDims = [1]) (hcol : d.collapsedSliceDims = [0]) (hob : d.operandBatchingDims = [])
    (hsim : d.startIndexMap = [0]) (hivd : d.indexVectorDim = 1) (hss : d.sliceSizes = ![1, C]) (hR : 0 < R)
    (x : (⟨2, ![R, C]⟩ : Shape).Idx → α) (idx : IVec ⟨2, ![n, 1]⟩ w) (k : Fin n) (q : Fin C) :
    Host.gather d x idx (ij k q) = x (ij ⟨min (idx (ixP k)).toInt.toNat (R - 1), by omega⟩ q) := by
  unfold Host.gather
  refine congrArg x (funext fun a => Fin.ext ?_)
  match a with
  | ⟨0, _⟩ =>
    refine (coord_mapped d hoff hivd hob idx k q 0 (by rw [hcol]; simp) (by rw [hsim]; simp) 0 (by rw [hsim]; simp)).trans ?_
    rw [hss, ij_zero_eq_ixP]
    rfl
  | ⟨1, _⟩ => exact coord_kept d hoff hob idx k q 1 (by rw [hcol]; simp) (by rw [hsim]; simp)

theorem gather_rows2_apply {α : Type} {A B C n w : Nat} (d : GatherDims ⟨3, ![A, B, C]⟩ ⟨2, ![n, 2]⟩ ⟨2, ![n, C]⟩)
    (hoff : d.offsetDims = [1]) (hcol : d.collapsedSliceDims = [0, 1]) (hob : d.operandBatchingDims = [])
    (hsim : d.startIndexMap = [0, 1]) (hivd : d.indexVectorDim = 1) (hss : d.sliceSizes = ![1, 1, C])
    (hA : 0 < A) (hB : 0 < B)
    (x : (⟨3, ![A, B, C]⟩ : Shape).Idx → α) (idx : IVec ⟨2, ![n, 2]⟩ w) (k : Fin n) (q : Fin C) :
    Host.gather d x idx (ij k q)
      = x (ValueIdx.ix3 ⟨min (idx (ij k 0)).toInt.toNat (A - 1), by omega⟩
            ⟨min (idx (ij k 1)).toInt.toNat (B - 1), by omega⟩ q) := by
  unfold Host.gather
  refine congrArg x (funext fun a => Fin.ext ?_)
  match a with
  | ⟨0, _⟩ =>
    refine (coord_mapped d hoff hivd hob idx k q 0 (by rw [hcol]; simp) (by rw [hsim]; simp) 0 (by rw [hsim]; simp)).trans ?_
    rw [hss]
    rfl
  | ⟨1, _⟩ =>
    refine (coord_mapped d hoff hivd hob idx k q 1 (by rw [hcol]; simp) (by rw [hsim]; simp) 1 (by rw [hsim]; simp)).trans ?_
    rw [hss]
    rfl
  | ⟨2, _⟩ => exact coord_kept d hoff hob idx k q 2 (by rw [hcol]; simp) (by rw [hsim]; simp)

theorem select_wrap (N : ℕ) (w : BitVec 32) :
    Scalar.select (IntOp.cmpi .slt w 0#32) (IntOp.addi w (BitVec.ofNat 32 N)) w = wrapW N w := by
  have hc : IntOp.cmpi .slt w 0#32 = BitVec.ofBool (w.slt 0#32) := rfl
  rw [hc, BitVec.slt_eq_decide, BitVec.toInt_zero]
  unfold wrapW Scalar.select IntOp.addi
  by_cases h : w.toInt < 0
  · rw [if_pos h, decide_eq_true h, BitVec.ofBool_true, if_pos rfl]
  · rw [if_neg h, decide_eq_false h, BitVec.ofBool_false, if_neg (by decide)]

theorem ij_eq_ix2 {a b : ℕ} (p : Fin a) (r : Fin b) : (ij p r : (⟨2, ![a, b]⟩ : Shape).Idx) = ix2 p r := by
  funext d; match d with | ⟨0, _⟩ => rfl | ⟨1, _⟩ => rfl

theorem ofFin_eq_ix1 {n : ℕ} (k : Fin n) : (Shape.Idx.ofFin k : (⟨1, ![n]⟩ : Shape).Idx) = ix1 k :=
  (eq_ix1 _).trans (congrArg ix1 (Shape.Idx.ofFin_zero k))

/-- The one-column table of the words of `x`, each with `N` added when negative. -/
abbrev wrapTab {n : ℕ} (h0 : (⟨0, ![]⟩ : Shape).BroadcastsInDim ⟨1, ![n]⟩ ![])
    (h1 : (⟨1, ![n]⟩ : Shape).BroadcastsInDim ⟨2, ![n, 1]⟩ ![0]) (N : ℕ) (x : IVec ⟨1, ![n]⟩ 32) : IVec ⟨2, ![n, 1]⟩ 32 :=
  broadcastInDim ⟨2, ![n, 1]⟩ ![0] h1 (select (cmpi .slt x (broadcastInDim _ ![] h0 (constantI ⟨0, ![]⟩ 32 0#32)))
    (addi x (broadcastInDim _ ![] h0 (constantI ⟨0, ![]⟩ 32 (BitVec.ofNat 32 N)))) x)

theorem wrapTab_apply {n : ℕ} (h0 : (⟨0, ![]⟩ : Shape).BroadcastsInDim ⟨1, ![n]⟩ ![])
    (h1 : (⟨1, ![n]⟩ : Shape).BroadcastsInDim ⟨2, ![n, 1]⟩ ![0]) (N : ℕ) (x : IVec ⟨1, ![n]⟩ 32) (k : Fin n) :
    wrapTab h0 h1 N x (ixP k) = wrapW N (x (ix1 k)) := by
  unfold wrapTab
  rw [bcast_col1, ofFin_eq_ix1, select_apply]
  exact (congrArg₂ (fun u v => Scalar.select (IntOp.cmpi .slt (x (ix1 k)) u) (IntOp.addi (x (ix1 k)) v) (x (ix1 k)))
    (broadcastInDim_scalar_apply h0 _ _) (broadcastInDim_scalar_apply h0 _ _)).trans (select_wrap N _)

/-- Wrap, then clamp: the row read is `rowOf R` of the word. -/
theorem gather_wrap_apply {α : Type} {R C n : ℕ} (hR : 0 < R) (d : GatherDims ⟨2, ![R, C]⟩ ⟨2, ![n, 1]⟩ ⟨2, ![n, C]⟩)
    (hoff : d.offsetDims = [1]) (hcol : d.collapsedSliceDims = [0]) (hob : d.operandBatchingDims = [])
    (hsim : d.startIndexMap = [0]) (hivd : d.indexVectorDim = 1) (hss : d.sliceSizes = ![1, C])
    (h0 : (⟨0, ![]⟩ : Shape).BroadcastsInDim ⟨1, ![n]⟩ ![]) (h1 : (⟨1, ![n]⟩ : Shape).BroadcastsInDim ⟨2, ![n, 1]⟩ ![0])
    (x : (⟨2, ![R, C]⟩ : Shape).Idx → α) (w : IVec ⟨1, ![n]⟩ 32) (k : Fin n) (q : Fin C) :
    Host.gather d x (wrapTab h0 h1 R w) (ix2 k q) = x (ix2 (rowOf R hR (w (ix1 k))) q) := by
  rw [← ij_eq_ix2 k q, gather_rows_apply d hoff hcol hob hsim hivd hss hR, ij_eq_ix2]
  refine congrArg x (congrArg (fun r => ix2 r q) (Fin.ext ?_))
  show min (wrapTab h0 h1 R w (ixP k)).toInt.toNat (R - 1) = min (wrapW R _).toInt.toNat (R - 1)
  rw [wrapTab_apply]

end Idealize.ShloMosaic.GatherRows

end
-- ==== Proof.KI.HostNodes.lean ====
import proofs.«421506_j68049461838612_3_alg».proof.Proof.Gen.KernelIdeal.Launch
import proofs.«421506_j68049461838612_3_alg».proof.Proof.KI.ArgsOf
import proofs.«421506_j68049461838612_3_alg».proof.Proof.LibGatherRows
import Idealize.ShloMosaic.Lib.StableHlo.Run
import Idealize.ShloMosaic.Lib.ValueLayout

noncomputable section

namespace Cert.KernelIdeal.Fr

open Idealize.ShloMosaic Idealize.SL.Sem Cert.KernelIdeal Cert.KernelIdeal.Gen

theorem host_hu (W : Valuation τ sig (Elt Ideal)) (n : Fin 100000) (j : Fin 64) :
    (StableHlo.after (hostOps0 (F := Ideal)) W (Proc.devRef .tc main_v14) : S100000x64.Idx → EReal) (ValueIdx.ix2 n j)
      = (argsOf W).hu n j := by
  after_results_simp
  show (_ : EReal) + _ = _
  rw [GatherRows.gather_wrap_apply (R := 500000) (by decide) _ rfl rfl rfl rfl rfl rfl,
    GatherRows.gather_wrap_apply (R := 3) (by decide) _ rfl rfl rfl rfl rfl rfl]
  rfl

theorem host_hi (W : Valuation τ sig (Elt Ideal)) (n : Fin 50000) (j : Fin 64) :
    (StableHlo.after (hostOps0 (F := Ideal)) W (Proc.devRef .tc main_v29) : S50000x64.Idx → EReal) (ValueIdx.ix2 n j)
      = (argsOf W).hi n j := by
  after_results_simp
  show (_ : EReal) + _ = _
  rw [GatherRows.gather_wrap_apply (R := 200000) (by decide) _ rfl rfl rfl rfl rfl rfl,
    GatherRows.gather_wrap_apply (R := 20) (by decide) _ rfl rfl rfl rfl rfl rfl]
  rfl

theorem host_WrT_w (W : Valuation τ sig (Elt Ideal)) (r : Fin 6) (j i : Fin 64) :
    (StableHlo.after (hostOps0 (F := Ideal)) W (Proc.devRef .tc main_v83) : S6x64x64.Idx → EReal) (ValueIdx.ix3 r j i)
      = (argsOf W).WrwF r i j := by
  after_results_simp
  exact ValueIdx.transpose_ix3_021_apply (W (Proc.devRef .tc main_arg11)) _ r j i

theorem host_WrT_wb (W : Valuation τ sig (Elt Ideal)) (r : Fin 6) (j i : Fin 64) :
    (StableHlo.after (hostOps0 (F := Ideal)) W (Proc.devRef .tc main_v84) : S6x64x64.Idx → EReal) (ValueIdx.ix3 r j i)
      = (argsOf W).WrwbF r i j := by
  after_results_simp
  exact ValueIdx.transpose_ix3_021_apply (W (Proc.devRef .tc main_arg12)) _ r j i

theorem host2_Ww (W : Valuation τ sig (Elt Ideal)) (q : Fin 128) (k : Fin 64) :
    (StableHlo.after (hostOps2 (F := Ideal)) W (Proc.devRef .tc main_v87) : S128x64.Idx → EReal) (ValueIdx.ix2 q k)
      = (W (Proc.devRef .tc main_arg13) : S64x128.Idx → EReal) (ValueIdx.ix2 k q) := by
  after_results
  exact ValueIdx.transpose_ix2_apply _ _ q k

theorem host2_Vf (W : Valuation τ sig (Elt Ideal)) (k o : Fin 64) :
    (StableHlo.after (hostOps2 (F := Ideal)) W (Proc.devRef .tc main_v88) : S64x64.Idx → EReal) (ValueIdx.ix2 k o)
      = (W (Proc.devRef .tc main_arg19) : S64x64.Idx → EReal) (ValueIdx.ix2 o k) := by
  after_results
  exact ValueIdx.transpose_ix2_apply _ _ k o

theorem host2_bw (W : Valuation τ sig (Elt Ideal)) (k : Fin 64) :
    (StableHlo.after (hostOps2 (F := Ideal)) W (Proc.devRef .tc main_v89) : S1x64.Idx → EReal) (ValueIdx.ix2 (0 : Fin 1) k)
      = (W (Proc.devRef .tc main_arg14) : S64.Idx → EReal) (ValueIdx.ix1 k) := by
  after_results
  exact ValueIdx.shapeCast_a_1a_apply _ _ 0 k

theorem host2_bv (W : Valuation τ sig (Elt Ideal)) (o : Fin 64) :
    (StableHlo.after (hostOps2 (F := Ideal)) W (Proc.devRef .tc main_v90) : S1x64.Idx → EReal) (ValueIdx.ix2 (0 : Fin 1) o)
      = (W (Proc.devRef .tc main_arg20) : S64.Idx → EReal) (ValueIdx.ix1 o) := by
  after_results
  exact ValueIdx.shapeCast_a_1a_apply _ _ 0 o

theorem host3_Wwb (W : Valuation τ sig (Elt Ideal)) (q : Fin 128) (k : Fin 64) :
    (StableHlo.after (hostOps3 (F := Ideal)) W (Proc.devRef .tc main_v92) : S128x64.Idx → EReal) (ValueIdx.ix2 q k)
      = (W (Proc.devRef .tc main_arg15) : S64x128.Idx → EReal) (ValueIdx.ix2 k q) := by
  after_results
  exact ValueIdx.transpose_ix2_apply _ _ q k

theorem host3_Wf (W : Valuation τ sig (Elt Ideal)) (k o : Fin 64) :
    (StableHlo.after (hostOps3 (F := Ideal)) W (Proc.devRef .tc main_v93) : S64x64.Idx → EReal) (ValueIdx.ix2 k o)
      = (W (Proc.devRef .tc main_arg17) : S64x64.Idx → EReal) (ValueIdx.ix2 o k) := by
  after_results
  exact ValueIdx.transpose_ix2_apply _ _ k o

theorem host3_bwb (W : Valuation τ sig (Elt Ideal)) (k : Fin 64) :
    (StableHlo.after (hostOps3 (F := Ideal)) W (Proc.devRef .tc main_v94) : S1x64.Idx → EReal) (ValueIdx.ix2 (0 : Fin 1) k)
      = (W (Proc.devRef .tc main_arg16) : S64.Idx → EReal) (ValueIdx.ix1 k) := by
  after_results
  exact ValueIdx.shapeCast_a_1a_apply _ _ 0 k

theorem host3_bf (W : Valuation τ sig (Elt Ideal)) (o : Fin 64) :
    (StableHlo.after (hostOps3 (F := Ideal)) W (Proc.devRef .tc main_v95) : S1x64.Idx → EReal) (ValueIdx.ix2 (0 : Fin 1) o)
      = (W (Proc.devRef .tc main_arg18) : S64.Idx → EReal) (ValueIdx.ix1 o) := by
  after_results
  exact ValueIdx.shapeCast_a_1a_apply _ _ 0 o

end Cert.KernelIdeal.Fr

end
-- ==== Proof.LibScatterRows.lean ====
import Idealize.ShloMosaic.PureOps.Ideal
import Idealize.ShloMosaic.Lib.StableHlo.Predicate

noncomputable section

namespace Idealize.ShloMosaic.ScatterRows

open Idealize.ShloMosaic Idealize.ShloMosaic.StableHlo.Predicate

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · next hh =>
      have h1 := Option.some.inj h
      have ha := congrArg Fin.val (congrFun h1 a)
      simp only at ha
      have := hh a
      omega
    · exact absurd h (by simp)
  · intro h
    have hh : ∀ a, 0 ≤ d.start j idx a + d.window j a ∧ d.start j idx a + d.window j a < s.size a := by
      intro a; have := h a; have := (i a).isLt; omega
    rw [dif_pos hh]
    congr 1
    funext a
    apply Fin.ext
    show (d.start j idx a + d.window j a).toNat = (i a).val
    have := h a; omega

theorem resultIdx?_rows {R C n w : Nat} (d : ScatterDims ⟨2, ![R, C]⟩ ⟨2, ![n, 1]⟩ ⟨2, ![n, C]⟩)
    (hwin : d.updateWindowDims = [1]) (hins : d.insertedWindowDims = [0]) (hsd : d.scatterDimsToOperandDims = [0])
    (hivd : d.indexVectorDim = 1) (idx : IVec ⟨2, ![n, 1]⟩ w) (k : Fin n) (q : Fin C) (i : (⟨2, ![R, C]⟩ : Shape).Idx) :
    d.resultIdx? (ij k q) idx = some i ↔ (idx (ixP k)).toInt = ((i 0).val : ℤ) ∧ q.val = (i 1).val := by
  rw [resultIdx?_eq_some_iff]
  have h0 : d.start (ij k q) idx 0 + (d.window (ij k q) 0 : ℤ) = (idx (ixP k)).toInt := by
    have hk : (0 : Fin 2) ∉ d.sKept := by simp [ScatterDims.sKept, Shape.kept, hins]
    unfold ScatterDims.start ScatterDims.window
    rw [dif_pos (by rw [hsd]; exact List.mem_singleton.mpr rfl), dif_neg hk, Nat.cast_zero, add_zero]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 2, X ∈ d.uScatter → ((ij k q : (⟨2, ![n, C]⟩ : Shape).Idx) X).val = k.val := fun X hX => by
        simp only [ScatterDims.uScatter, Shape.kept, hwin, List.mem_filter] at hX
        match X with
        | ⟨0, _⟩ => rfl
        | ⟨1, _⟩ => simp at hX
      exact e _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have h1 : d.start (ij k q) idx 1 + (d.window (ij k q) 1 : ℤ) = (q.val : ℤ) := by
    have hk : (1 : Fin 2) ∈ d.sKept := by simp [ScatterDims.sKept, Shape.kept, hins]
    unfold ScatterDims.start ScatterDims.window
    rw [dif_neg (by rw [hsd]; simp), dif_pos hk, zero_add, Nat.cast_inj]
    have e : ∀ X : Fin 2, X ∈ d.updateWindowDims → ((ij k q : (⟨2, ![n, C]⟩ : Shape).Idx) X).val = q.val := fun X hX => by
      rw [hwin] at hX
      cases List.mem_singleton.mp hX
      rfl
    exact e _ (List.getElem_mem _)
  constructor
  · intro h
    refine ⟨by rw [← h 0, h0], ?_⟩
    have := h 1
    rw [h1] at this
    exact_mod_cast this
  · intro h a
    match a with
    | ⟨0, _⟩ => exact h0.trans h.1
    | ⟨1, _⟩ => exact h1.trans (by exact_mod_cast h.2)

private def idx2Equiv (n m : Nat) : (⟨2, ![n, m]⟩ : Shape).Idx ≃ Fin n × Fin m where
  toFun i := (i 0, i 1)
  invFun p := ij p.1 p.2
  left_inv i := ij_eta i
  right_inv _ := rfl

private theorem sum_ite_and_val {C : Nat} {M : Type*} [AddCommMonoid M] (P : Prop) [Decidable P] (c : Fin C)
    (f : Fin C → M) :
    (∑ q : Fin C, if P ∧ q.val = c.val then f q else 0) = if P then f c else 0 := by
  by_cases hP : P
  · rw [if_pos hP]
    have hq : ∀ q : Fin C, (if P ∧ q.val = c.val then f q else 0) = if q = c then f q else 0 := fun q =>
      if_congr ⟨fun h => Fin.ext h.2, fun h => ⟨hP, by rw [h]⟩⟩ rfl rfl
    rw [Finset.sum_congr rfl (fun q _ => hq q), Finset.sum_ite_eq' Finset.univ c f]
    simp
  · rw [if_neg hP]
    exact Finset.sum_eq_zero (fun q _ => if_neg (fun h => hP h.1))

theorem scatterAdd_rows_apply {R C n w : Nat} (d : ScatterDims ⟨2, ![R, C]⟩ ⟨2, ![n, 1]⟩ ⟨2, ![n, C]⟩)
    (hwin : d.updateWindowDims = [1]) (hins : d.insertedWindowDims = [0]) (hsd : d.scatterDimsToOperandDims = [0])
    (hivd : d.indexVectorDim = 1) (x : (⟨2, ![R, C]⟩ : Shape).Idx → EReal) (idx : IVec ⟨2, ![n, 1]⟩ w)
    (upd : (⟨2, ![n, C]⟩ : Shape).Idx → EReal) (i : (⟨2, ![R, C]⟩ : Shape).Idx) :
    Ideal.hostScatterAdd d x idx upd i
      = x i + ∑ k : Fin n, if (idx (ixP k)).toInt = ((i 0).val : ℤ) then upd (ij k (i 1)) else 0 := by
  unfold Ideal.hostScatterAdd
  congr 1
  rw [Finset.sum_filter]
  rw [← Equiv.sum_comp (idx2Equiv n C).symm, Fintype.sum_prod_type]
  refine Finset.sum_congr rfl (fun k _ => ?_)
  rw [← sum_ite_and_val ((idx (ixP k)).toInt = ((i 0).val : ℤ)) (i 1) (fun q => upd (ij k q))]
  refine Finset.sum_congr rfl (fun q _ => ?_)
  show (if d.resultIdx? (ij k q) idx = some i then upd (ij k q) else 0) = _
  exact if_congr (resultIdx?_rows d hwin hins hsd hivd idx k q i) rfl rfl

end Idealize.ShloMosaic.ScatterRows

end
-- ==== Proof.KI.HostEdges.lean ====
import proofs.«421506_j68049461838612_3_alg».proof.Proof.KI.HostNodes
import proofs.«421506_j68049461838612_3_alg».proof.Proof.LibScatterRows
import Idealize.ShloMosaic.Lib.IdealHost
import Mathlib.Algebra.Order.BigOperators.Group.Finset

noncomputable section

namespace Cert.KernelIdeal.Fr

open Idealize.ShloMosaic Idealize.SL.Sem
open Idealize.ShloMosaic.StableHlo.Predicate
open Cert.KernelIdeal Cert.KernelIdeal.Gen

-- A rating below 6 and a destination below `M` with `6 * M` below 2³¹: neither the product nor the sum wraps.
private theorem key_toInt (M : ℕ) (hM : 6 * M < 2 ^ 31) (a b : BitVec 32) (ha0 : 0 ≤ a.toInt) (ha1 : a.toInt < 6)
    (hb0 : 0 ≤ b.toInt) (hb1 : b.toInt < (M : ℤ)) :
    (IntOp.addi (IntOp.muli a (BitVec.ofNat 32 M)) b).toInt = a.toInt * (M : ℤ) + b.toInt := by
  have h5 : a.toInt * M ≤ 5 * M := Int.mul_le_mul_of_nonneg_right (by omega) (by omega)
  have h0 : 0 ≤ a.toInt * M := Int.mul_nonneg ha0 (by omega)
  have hm : ∀ n : ℤ, 0 ≤ n → n < 2 ^ 31 → n.bmod (2 ^ 32) = n := fun n _ _ => Int.bmod_eq_of_le (by omega) (by omega)
  unfold IntOp.addi IntOp.muli
  rw [BitVec.toInt_add, BitVec.toInt_mul, toInt_ofNat_small M (by omega), hm (a.toInt * M) h0 (by omega),
    hm (a.toInt * M + b.toInt) (by omega) (by omega)]

-- Division with remainder: both remainders are below `M`.
private theorem key_eq_iff (M a r b d : ℕ) (hb : b < M) (hd : d < M) : a * M + b = r * M + d ↔ a = r ∧ b = d := by
  refine ⟨fun h => ?_, fun ⟨h1, h2⟩ => by rw [h1, h2]⟩
  have h1 : a = r := by
    have := congrArg (· / M) h
    simpa [Nat.add_comm, Nat.add_mul_div_right _ _ (by omega : 0 < M), Nat.div_eq_of_lt hb, Nat.div_eq_of_lt hd] using this
  subst h1
  exact ⟨rfl, by omega⟩

-- Every edge is counted at its own destination.
private theorem one_le_cnt {E Nd : ℕ} (dst : Fin E → Fin Nd) (e : Fin E) : (1 : EReal) ≤ Cert.Gcmc.cnt dst (dst e) := by
  unfold Cert.Gcmc.cnt
  calc (1 : EReal) = if dst e = dst e then (1 : EReal) else 0 := by rw [if_pos rfl]
    _ ≤ _ := Finset.single_le_sum (f := fun e' => if dst e' = dst e then (1 : EReal) else 0)
        (fun e' _ => by split_ifs <;> norm_num) (Finset.mem_univ e)

private theorem div_of_ne_zero (x y : EReal) (hy : y ≠ 0) : Ideal.div x y = x / y := by
  unfold Ideal.div
  rw [if_neg hy, div_eq_mul_inv]

private theorem ixP_eq_ij {n : Nat} (p : Fin n) : ixP p = ij p (0 : Fin 1) := by
  funext a; match a with | ⟨0, _⟩ => rfl | ⟨1, _⟩ => rfl

-- A scatter-add of rows into zeros by a column of words: entry `(i, q)` is the sum of the update rows whose word is `i`.
private theorem scatter_zero_apply {R C E : ℕ} (d : ScatterDims ⟨2, ![R, C]⟩ ⟨2, ![E, 1]⟩ ⟨2, ![E, C]⟩)
    (hwin : d.updateWindowDims = [1]) (hins : d.insertedWindowDims = [0]) (hsd : d.scatterDimsToOperandDims = [0])
    (hivd : d.indexVectorDim = 1) (b0 : (⟨0, ![]⟩ : Shape).BroadcastsInDim ⟨2, ![R, C]⟩ ![])
    (bc : (⟨1, ![E]⟩ : Shape).BroadcastsInDim ⟨2, ![E, 1]⟩ ![0]) (key : IVec ⟨1, ![E]⟩ 32)
    (upd : (⟨2, ![E, C]⟩ : Shape).Idx → EReal) (i : Fin R) (q : Fin C) :
    Host.scatterAdd (F := Ideal) d (broadcastInDim ⟨2, ![R, C]⟩ ![] b0 (constant ⟨0, ![]⟩ .f32 0x00000000#32))
        (broadcastInDim ⟨2, ![E, 1]⟩ ![0] bc key) upd (ij i q)
      = ∑ e : Fin E, if (key (ValueIdx.ix1 e)).toInt = ((i : ℕ) : ℤ) then upd (ij e q) else 0 := by
  show Ideal.hostScatterAdd d _ _ _ _ = _
  rw [ScatterRows.scatterAdd_rows_apply d hwin hins hsd hivd]
  show Ideal.ofBits .f32 0x00000000#32 + _ = _
  rw [Ideal.ofBits_zero_f32, zero_add]
  refine Finset.sum_congr rfl fun e _ => ?_
  rw [bcast_col1, GatherRows.ofFin_eq_ix1]
  rfl

private theorem agg_apply {Ns Nd R E : ℕ} (hNs : 0 < Ns) (hNd : 0 < Nd) (hR : R = 6 * Nd) (hM : 6 * Nd < 2 ^ 31)
    (b0E : (⟨0, ![]⟩ : Shape).BroadcastsInDim ⟨1, ![E]⟩ ![])
    (bE1 : (⟨1, ![E]⟩ : Shape).BroadcastsInDim ⟨2, ![E, 1]⟩ ![0])
    (b0R : (⟨0, ![]⟩ : Shape).BroadcastsInDim ⟨2, ![R, 64]⟩ ![])
    (b0D : (⟨0, ![]⟩ : Shape).BroadcastsInDim ⟨2, ![Nd, 1]⟩ ![])
    (b0E1 : (⟨0, ![]⟩ : Shape).BroadcastsInDim ⟨2, ![E, 1]⟩ ![])
    (bEC : (⟨2, ![E, 1]⟩ : Shape).BroadcastsInDim ⟨2, ![E, 64]⟩ ![0, 1])
    (hcast : (⟨2, ![R, 64]⟩ : Shape).ShapeCasts ⟨3, ![6, Nd, 64]⟩)
    (sR : ScatterDims ⟨2, ![R, 64]⟩ ⟨2, ![E, 1]⟩ ⟨2, ![E, 64]⟩)
    (sR1 : sR.updateWindowDims = [1]) (sR2 : sR.insertedWindowDims = [0]) (sR3 : sR.scatterDimsToOperandDims = [0])
    (sR4 : sR.indexVectorDim = 1)
    (sC : ScatterDims ⟨2, ![Nd, 1]⟩ ⟨2, ![E, 1]⟩ ⟨2, ![E, 1]⟩)
    (sC1 : sC.updateWindowDims = [1]) (sC2 : sC.insertedWindowDims = [0]) (sC3 : sC.scatterDimsToOperandDims = [0])
    (sC4 : sC.indexVectorDim = 1)
    (gS : GatherDims ⟨2, ![Ns, 64]⟩ ⟨2, ![E, 1]⟩ ⟨2, ![E, 64]⟩)
    (gS1 : gS.offsetDims = [1]) (gS2 : gS.collapsedSliceDims = [0]) (gS3 : gS.operandBatchingDims = [])
    (gS4 : gS.startIndexMap = [0]) (gS5 : gS.indexVectorDim = 1) (gS6 : gS.sliceSizes = ![1, 64])
    (gC : GatherDims ⟨2, ![Nd, 1]⟩ ⟨2, ![E, 1]⟩ ⟨2, ![E, 1]⟩)
    (gC1 : gC.offsetDims = [1]) (gC2 : gC.collapsedSliceDims = [0]) (gC3 : gC.operandBatchingDims = [])
    (gC4 : gC.startIndexMap = [0]) (gC5 : gC.indexVectorDim = 1) (gC6 : gC.sliceSizes = ![1, 1])
    (H : (⟨2, ![Ns, 64]⟩ : Shape).Idx → EReal) (hs : Fin Ns → Fin 64 → EReal)
    (hH : ∀ n j, H (ValueIdx.ix2 n j) = hs n j)
    (src dst rt : IVec ⟨1, ![E]⟩ 32)
    (hd0 : ∀ e : Fin E, 0 ≤ (dst (ValueIdx.ix1 e)).toInt) (hd1 : ∀ e : Fin E, (dst (ValueIdx.ix1 e)).toInt < (Nd : ℤ))
    (hr0 : ∀ e : Fin E, 0 ≤ (rt (ValueIdx.ix1 e)).toInt) (hr1 : ∀ e : Fin E, (rt (ValueIdx.ix1 e)).toInt < 6)
    (r : Fin 6) (d : Fin Nd) (j : Fin 64) :
    shapeCast ⟨3, ![6, Nd, 64]⟩
        (Host.scatterAdd (F := Ideal) sR (broadcastInDim ⟨2, ![R, 64]⟩ ![] b0R (constant ⟨0, ![]⟩ .f32 0x00000000#32))
          (broadcastInDim ⟨2, ![E, 1]⟩ ![0] bE1
            (addi (muli rt (broadcastInDim ⟨1, ![E]⟩ ![] b0E (constantI ⟨0, ![]⟩ 32 (BitVec.ofNat 32 Nd)))) dst))
          (Host.divf
            (Host.gather gS H (GatherRows.wrapTab b0E bE1 Ns src))
            (broadcastInDim ⟨2, ![E, 64]⟩ ![0, 1] bEC
              (Host.gather gC
                (Host.scatterAdd (F := Ideal) sC
                  (broadcastInDim ⟨2, ![Nd, 1]⟩ ![] b0D (constant ⟨0, ![]⟩ .f32 0x00000000#32))
                  (broadcastInDim ⟨2, ![E, 1]⟩ ![0] bE1 dst)
                  (broadcastInDim ⟨2, ![E, 1]⟩ ![] b0E1 (constant ⟨0, ![]⟩ .f32 0x3F800000#32)))
                (GatherRows.wrapTab b0E bE1 Nd dst)))))
        hcast (ValueIdx.ix3 r d j)
      = ∑ e : Fin E,
          if Cert.Gcmc.rowOf 6 (by decide) (rt (ValueIdx.ix1 e)) = r ∧ Cert.Gcmc.rowOf Nd hNd (dst (ValueIdx.ix1 e)) = d then
            hs (Cert.Gcmc.rowOf Ns hNs (src (ValueIdx.ix1 e))) j
              / Cert.Gcmc.cnt (fun e' => Cert.Gcmc.rowOf Nd hNd (dst (ValueIdx.ix1 e'))) (Cert.Gcmc.rowOf Nd hNd (dst (ValueIdx.ix1 e)))
          else 0 := by
  subst hR
  have h5 : r.val * Nd ≤ 5 * Nd := Nat.mul_le_mul_right _ (by omega)
  have hrow : r.val * Nd + d.val < 6 * Nd := by have := d.isLt; omega
  have hrv := fun e => Cert.Gcmc.rowOf_val_of_range 6 (by decide) (rt (ValueIdx.ix1 e)) (hr0 e) (by exact_mod_cast hr1 e)
  have hdv := fun e => Cert.Gcmc.rowOf_val_of_range Nd hNd (dst (ValueIdx.ix1 e)) (hd0 e) (hd1 e)
  rw [shapeCast_apply _ hcast (ValueIdx.ix3 r d j) (ij ⟨r.val * Nd + d.val, hrow⟩ j)
    (by rw [Shape.rowMajor_val_two, Shape.rowMajor_val_three]; rfl),
    scatter_zero_apply sR sR1 sR2 sR3 sR4]
  refine Finset.sum_congr rfl fun e _ => ?_
  show (if (IntOp.addi (IntOp.muli (rt (ValueIdx.ix1 e)) (BitVec.ofNat 32 Nd)) (dst (ValueIdx.ix1 e))).toInt
          = ((r.val * Nd + d.val : ℕ) : ℤ)
        then Ideal.div (Host.gather gS H _ (ij e j)) (broadcastInDim _ _ bEC _ (ij e j)) else 0) = _
  rw [bcast_of_col, ixP_eq_ij, GatherRows.ij_eq_ix2, GatherRows.ij_eq_ix2, GatherRows.gather_wrap_apply hNs gS gS1 gS2 gS3 gS4 gS5 gS6, hH,
    GatherRows.gather_wrap_apply hNd gC gC1 gC2 gC3 gC4 gC5 gC6, ← GatherRows.ij_eq_ix2, scatter_zero_apply sC sC1 sC2 sC3 sC4,
    key_toInt Nd hM _ _ (hr0 e) (hr1 e) (hd0 e) (hd1 e)]
  have hcnt : (∑ e' : Fin E, if (dst (ValueIdx.ix1 e')).toInt = ((Cert.Gcmc.rowOf Nd hNd (dst (ValueIdx.ix1 e)) : ℕ) : ℤ)
      then broadcastInDim ⟨2, ![E, 1]⟩ ![] b0E1 (constant (F := Ideal) ⟨0, ![]⟩ .f32 0x3F800000#32) (ij e' 0) else 0)
      = Cert.Gcmc.cnt (fun e' => Cert.Gcmc.rowOf Nd hNd (dst (ValueIdx.ix1 e'))) (Cert.Gcmc.rowOf Nd hNd (dst (ValueIdx.ix1 e))) :=
    Finset.sum_congr rfl fun e' _ => (if_congr (by rw [← hdv e', Nat.cast_inj, Fin.val_inj]) Ideal.ofBits_one_f32 rfl)
  rw [hcnt, div_of_ne_zero _ _ (ne_of_gt (lt_of_lt_of_le zero_lt_one
      (one_le_cnt (fun e' => Cert.Gcmc.rowOf Nd hNd (dst (ValueIdx.ix1 e'))) e)))]
  refine if_congr ?_ rfl rfl
  rw [← hrv e, ← hdv e, Fin.ext_iff, Fin.ext_iff,
    ← key_eq_iff Nd _ r.val _ d.val (Cert.Gcmc.rowOf Nd hNd (dst (ValueIdx.ix1 e))).isLt d.isLt]
  norm_cast

set_option maxHeartbeats 1000000 in
theorem host_Sw (W : Valuation τ sig (Elt Ideal)) (hok : (argsOf W).Ok) (r : Fin 6) (d : Fin 50000) (j : Fin 64) :
    (StableHlo.after (hostOps0 (F := Ideal)) W (Proc.devRef .tc main_v78) : S6x50000x64.Idx → EReal) (ValueIdx.ix3 r d j)
      = ∑ e : Fin 1600000, if (argsOf W).rtF e = r ∧ (argsOf W).eiF e = d then
          (argsOf W).hu ((argsOf W).euF e) j / Cert.Gcmc.cnt (argsOf W).eiF ((argsOf W).eiF e) else 0 := by
  refine Eq.trans ?_ (agg_apply (Ns := 100000) (Nd := 50000) (R := 300000) (E := 1600000) (by decide) (by decide) rfl (by norm_num)
    bcast_S_S1600000 bcast_S1600000_S1600000x1_0 bcast_S_S300000x64 bcast_S_S50000x1 bcast_S_S1600000x1
    bcast_S1600000x1_S1600000x64_0_1 shapeCasts_S300000x64_S6x50000x64
    scatter_S300000x64_S1600000x1_S1600000x64_1_0_0_1 rfl rfl rfl rfl
    scatter_S50000x1_S1600000x1_S1600000x1_1_0_0_1 rfl rfl rfl rfl
    gather_S100000x64_S1600000x1_S1600000x64_1_0_n_n_0_1_164 rfl rfl rfl rfl rfl rfl
    gather_S50000x1_S1600000x1_S1600000x1_1_0_n_n_0_1_11 rfl rfl rfl rfl rfl rfl
    (StableHlo.after (hostOps0 (F := Ideal)) W (Proc.devRef .tc main_v14)) (argsOf W).hu (host_hu W)
    (W (Proc.devRef .tc main_arg4)) (W (Proc.devRef .tc main_arg5)) (W (Proc.devRef .tc main_arg6))
    hok.ei0 (fun e => by exact_mod_cast hok.ei1 e) hok.rt0 hok.rt1 r d j)
  after_results_simp
  rfl

set_option maxHeartbeats 1000000 in
theorem host_Swb (W : Valuation τ sig (Elt Ideal)) (hok : (argsOf W).Ok) (r : Fin 6) (d : Fin 100000) (j : Fin 64) :
    (StableHlo.after (hostOps0 (F := Ideal)) W (Proc.devRef .tc main_v82) : S6x100000x64.Idx → EReal) (ValueIdx.ix3 r d j)
      = ∑ e : Fin 1600000, if (argsOf W).rtF e = r ∧ (argsOf W).euF e = d then
          (argsOf W).hi ((argsOf W).eiF e) j / Cert.Gcmc.cnt (argsOf W).euF ((argsOf W).euF e) else 0 := by
  refine Eq.trans ?_ (agg_apply (Ns := 50000) (Nd := 100000) (R := 600000) (E := 1600000) (by decide) (by decide) rfl (by norm_num)
    bcast_S_S1600000 bcast_S1600000_S1600000x1_0 bcast_S_S600000x64 bcast_S_S100000x1 bcast_S_S1600000x1
    bcast_S1600000x1_S1600000x64_0_1 shapeCasts_S600000x64_S6x100000x64
    scatter_S600000x64_S1600000x1_S1600000x64_1_0_0_1 rfl rfl rfl rfl
    scatter_S100000x1_S1600000x1_S1600000x1_1_0_0_1 rfl rfl rfl rfl
    gather_S50000x64_S1600000x1_S1600000x64_1_0_n_n_0_1_164 rfl rfl rfl rfl rfl rfl
    gather_S100000x1_S1600000x1_S1600000x1_1_0_n_n_0_1_11 rfl rfl rfl rfl rfl rfl
    (StableHlo.after (hostOps0 (F := Ideal)) W (Proc.devRef .tc main_v29)) (argsOf W).hi (host_hi W)
    (W (Proc.devRef .tc main_arg5)) (W (Proc.devRef .tc main_arg4)) (W (Proc.devRef .tc main_arg6))
    hok.eu0 (fun e => by exact_mod_cast hok.eu1 e) hok.rt0 hok.rt1 r d j)
  after_results_simp
  rfl

end Cert.KernelIdeal.Fr
end
-- ==== Proof.KI.Final.lean ====
import proofs.«421506_j68049461838612_3_alg».proof.Proof.KI.RegAcc0Val
import proofs.«421506_j68049461838612_3_alg».proof.Proof.KI.RegAcc1Val
import proofs.«421506_j68049461838612_3_alg».proof.Proof.KI.RegProj2Val
import proofs.«421506_j68049461838612_3_alg».proof.Proof.KI.RegProj3Val
import proofs.«421506_j68049461838612_3_alg».proof.Proof.KI.Keep
import proofs.«421506_j68049461838612_3_alg».proof.Proof.KI.HostEdges

noncomputable section

namespace Cert.KernelIdeal.Fr

open Idealize.ShloMosaic Idealize.ShloMosaic.TcCoe Idealize.SL Idealize.SL.Sem
open Idealize.ShloMosaic.ValueIdx
open Cert.KernelIdeal Cert.KernelIdeal.Gen

variable (m : (ℓ : Loc nD τ sig) → Buf (Elt Ideal) ℓ) (ρ : Dev nD → PrngReg)

-- Each array the last region reads is traced back to the argument arrays; the two sides then agree term for term.
theorem kernel_item (c : Dev nD) (hok : (argsOf (W0 m ρ c)).Ok) (d : Fin 50000) (o : Fin 64) :
    (W7 m ρ c (Proc.devRef .tc main_v91) : S50000x64.Idx → EReal) (ix2 d o) = (argsOf (W0 m ρ c)).itemOutK d o := by
  have h0 := fun x => (congrFun (V4_v29 m ρ c) _).trans (host_hi (W0 m ρ c) d x)
  have h1 := fun x => (congrFun (V4_v85 m ρ c) _).trans (final0 (V1 m ρ) c d x)
  have h2 := fun q k => (host2_Ww (W3 m ρ c) q k).trans (congrFun (W3_arg m ρ c _ (by simp [mainArgs])) _)
  have h3 := fun k => (host2_bw (W3 m ρ c) k).trans (congrFun (W3_arg m ρ c _ (by simp [mainArgs])) _)
  have h4 := fun k o => (host2_Vf (W3 m ρ c) k o).trans (congrFun (W3_arg m ρ c _ (by simp [mainArgs])) _)
  have h5 := fun o => (host2_bv (W3 m ρ c) o).trans (congrFun (W3_arg m ρ c _ (by simp [mainArgs])) _)
  rw [W7_v91]
  refine (final2 (V4 m ρ) c d o).trans ?_
  rw [proj2_apply]
  unfold Cert.Gcmc.Args.itemOutK Cert.Gcmc.proj Cert.Gcmc.neighK
  simp only [h0, h1, h2, h3, h4, h5, host_Sw _ hok, host_WrT_w (W0 m ρ c)]
  rfl

theorem kernel_user (c : Dev nD) (hok : (argsOf (W0 m ρ c)).Ok) (d : Fin 100000) (o : Fin 64) :
    (W7 m ρ c (Proc.devRef .tc main_v96) : S100000x64.Idx → EReal) (ix2 d o) = (argsOf (W0 m ρ c)).userOutK d o := by
  have h0 := fun x => (congrFun (V6_v14 m ρ c) _).trans (host_hu (W0 m ρ c) d x)
  have h1 := fun x => (congrFun (V6_v86 m ρ c) _).trans (final1 (V2 m ρ) c d x)
  have hS := fun r d j => (congrFun (V2_v82 m ρ c) _).trans (host_Swb _ hok r d j)
  have hW := fun r j x => (congrFun (V2_v84 m ρ c) _).trans (host_WrT_wb (W0 m ρ c) r j x)
  have h2 := fun q k => (host3_Wwb (W5 m ρ c) q k).trans (congrFun (W5_arg m ρ c _ (by simp [mainArgs])) _)
  have h3 := fun k => (host3_bwb (W5 m ρ c) k).trans (congrFun (W5_arg m ρ c _ (by simp [mainArgs])) _)
  have h4 := fun k o => (host3_Wf (W5 m ρ c) k o).trans (congrFun (W5_arg m ρ c _ (by simp [mainArgs])) _)
  have h5 := fun o => (host3_bf (W5 m ρ c) o).trans (congrFun (W5_arg m ρ c _ (by simp [mainArgs])) _)
  rw [W7_v96]
  refine (final3 (V6 m ρ) c d o).trans ?_
  rw [proj3_apply]
  unfold Cert.Gcmc.Args.userOutK Cert.Gcmc.proj Cert.Gcmc.neighK
  simp only [h0, h1, h2, h3, h4, h5, hS, hW]
  rfl

end Cert.KernelIdeal.Fr

end
-- ==== Proof.KI.PreDecode.lean ====
import proofs.«421506_j68049461838612_3_alg».proof.Defs
import proofs.«421506_j68049461838612_3_alg».proof.Proof.Gen.Pre_finite_inputs
import proofs.«421506_j68049461838612_3_alg».proof.Proof.KI.ArgsOf
import Idealize.ShloMosaic.Lib.ReduceAll
import Idealize.ShloMosaic.Lib.StableHlo.Predicate
import Idealize.ShloMosaic.Lib.ValueIdx

noncomputable section

namespace Cert.KernelIdeal.Fr

open Idealize.ShloMosaic Idealize.SL.Sem Cert.KernelIdeal
open Idealize.ShloMosaic.StableHlo.Predicate Idealize.ShloMosaic.ValueIdx

abbrev S0 : Shape := ⟨0, ![]⟩

instance : Subsingleton S0.Idx := ⟨fun a b => funext fun d => d.elim0⟩

-- The top is its own absolute value and the bottom's, so an absolute value below the top leaves only the reals.
private theorem real_of_abs_lt (x : EReal) (h : Ideal.cmp .olt (max x (-x)) (Ideal.ofBits .f32 0x7F800000#32) = 1#1) :
    ∃ r : ℝ, x = (r : EReal) := by
  unfold Ideal.cmp at h
  rw [ofBool_eq_one_iff, show Ideal.ofBits .f32 0x7F800000#32 = (⊤ : EReal) by simp [Ideal.ofBits, Ideal.ieee]] at h
  induction x using EReal.rec with
  | bot => simp at h
  | coe r => exact ⟨r, rfl⟩
  | top => simp at h

-- A reduction by `and` that is one is one at every entry; each entry's test is then read as an order fact.
theorem ok_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (argsOf (fun b => m ((c : Dev Cert.KernelIdeal.nD), b))).Ok := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  obtain ⟨e, rt1⟩ := IntOp.andi_eq_one.1 e
  obtain ⟨e, rt0⟩ := IntOp.andi_eq_one.1 e
  obtain ⟨e, ei1⟩ := IntOp.andi_eq_one.1 e
  obtain ⟨e, ei0⟩ := IntOp.andi_eq_one.1 e
  obtain ⟨e, eu1⟩ := IntOp.andi_eq_one.1 e
  obtain ⟨e, eu0⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, wrwb⟩ := IntOp.andi_eq_one.1 e
  obtain ⟨e, wrw⟩ := IntOp.andi_eq_one.1 e
  obtain ⟨e, nemb⟩ := IntOp.andi_eq_one.1 e
  obtain ⟨e, gemb⟩ := IntOp.andi_eq_one.1 e
  obtain ⟨uemb, iemb⟩ := IntOp.andi_eq_one.1 e
  exact
    { eu0 := fun k => IntOp.cmpi_sge.1 (Host.reduce_andi_all _ _ _ _ _ eu0 (ix1 k))
      eu1 := fun k => IntOp.cmpi_slt.1 (Host.reduce_andi_all _ _ _ _ _ eu1 (ix1 k))
      ei0 := fun k => IntOp.cmpi_sge.1 (Host.reduce_andi_all _ _ _ _ _ ei0 (ix1 k))
      ei1 := fun k => IntOp.cmpi_slt.1 (Host.reduce_andi_all _ _ _ _ _ ei1 (ix1 k))
      rt0 := fun k => IntOp.cmpi_sge.1 (Host.reduce_andi_all _ _ _ _ _ rt0 (ix1 k))
      rt1 := fun k => IntOp.cmpi_slt.1 (Host.reduce_andi_all _ _ _ _ _ rt1 (ix1 k))
      uemb := fun i => real_of_abs_lt _ (Host.reduce_andi_all _ _ _ _ _ uemb i)
      iemb := fun i => real_of_abs_lt _ (Host.reduce_andi_all _ _ _ _ _ iemb i)
      gemb := fun i => real_of_abs_lt _ (Host.reduce_andi_all _ _ _ _ _ gemb i)
      nemb := fun i => real_of_abs_lt _ (Host.reduce_andi_all _ _ _ _ _ nemb i)
      Wrw := fun i => real_of_abs_lt _ (Host.reduce_andi_all _ _ _ _ _ wrw i)
      Wrwb := fun i => real_of_abs_lt _ (Host.reduce_andi_all _ _ _ _ _ wrwb i) }

end Cert.KernelIdeal.Fr

end
-- ==== Proof.Ref.Nodes.lean ====
import proofs.«421506_j68049461838612_3_alg».proof.Proof.Gen.ReferenceIdeal.Read
import proofs.«421506_j68049461838612_3_alg».proof.Proof.LibGatherRows

noncomputable section

namespace Cert.ReferenceIdeal.Fr

open Cert.ReferenceIdeal Cert.ReferenceIdeal.Read Cert.ReferenceIdeal.Gen Idealize.ShloMosaic Idealize.ShloMosaic.ValueIdx
open Idealize.ShloMosaic.StableHlo.Predicate Idealize.ShloMosaic.GatherRows Cert.Gcmc

theorem ref_hu (a : Args) (n : Fin 100000) (j : Fin 64) :
    (val_main_v14 (F := Ideal) a.uid a.gid a.uemb a.gemb : S100000x64.Idx → EReal) (ix2 n j) = a.hu n j := by
  rw [val_main_v14_apply, Ideal.addf_def]
  exact congrArg₂ (· + ·) (gather_wrap_apply (by decide) _ rfl rfl rfl rfl rfl rfl _ _ a.uemb a.uid n j)
    (gather_wrap_apply (by decide) _ rfl rfl rfl rfl rfl rfl _ _ a.gemb a.gid n j)

theorem ref_hi (a : Args) (n : Fin 50000) (j : Fin 64) :
    (val_main_v29 (F := Ideal) a.iid a.gen a.iemb a.nemb : S50000x64.Idx → EReal) (ix2 n j) = a.hi n j := by
  rw [val_main_v29_apply, Ideal.addf_def]
  exact congrArg₂ (· + ·) (gather_wrap_apply (by decide) _ rfl rfl rfl rfl rfl rfl _ _ a.iemb a.iid n j)
    (gather_wrap_apply (by decide) _ rfl rfl rfl rfl rfl rfl _ _ a.nemb a.gen n j)

end Cert.ReferenceIdeal.Fr

end
-- ==== Proof.Ref.ValItem.lean ====
import proofs.«421506_j68049461838612_3_alg».proof.Proof.Ref.Nodes
import proofs.«421506_j68049461838612_3_alg».proof.Proof.LibScatterRows

noncomputable section

namespace Cert.ReferenceIdeal.Fr

open Cert.ReferenceIdeal Cert.ReferenceIdeal.Read Cert.ReferenceIdeal.Gen Idealize.ShloMosaic Idealize.ShloMosaic.ValueIdx
open Idealize.ShloMosaic.StableHlo.Predicate Idealize.ShloMosaic.GatherRows Cert.Gcmc

/-- Per edge, the row of `X` at the edge's rating and source node, both read off a two-column table of wrapped words. -/
theorem msg_apply {Ns E : ℕ} (hNs : 0 < Ns) (gd : GatherDims ⟨3, ![6, Ns, 64]⟩ ⟨2, ![E, 2]⟩ ⟨2, ![E, 64]⟩)
    (hg : gd.offsetDims = [1] ∧ gd.collapsedSliceDims = [0, 1] ∧ gd.operandBatchingDims = [] ∧ gd.startIndexMap = [0, 1]
      ∧ gd.indexVectorDim = 1 ∧ gd.sliceSizes = ![1, 1, 64])
    (hc : Shape.Concatenates [(⟨2, ![E, 1]⟩ : Shape), ⟨2, ![E, 1]⟩] ⟨2, ![E, 2]⟩ 1)
    (h0 : S_.BroadcastsInDim ⟨1, ![E]⟩ ![]) (h1 : (⟨1, ![E]⟩ : Shape).BroadcastsInDim ⟨2, ![E, 1]⟩ ![0])
    (X : V3 6 Ns 64) (wr ws : I1 E) (e : Fin E) (i : Fin 64) :
    Host.gather gd X (concatenate ⟨2, ![E, 2]⟩ 1 [⟨_, wrapTab h0 h1 6 wr⟩, ⟨_, wrapTab h0 h1 Ns ws⟩] hc) (ij e i)
      = X (ix3 (rowOf 6 (by decide) (wr (ix1 e))) (rowOf Ns hNs (ws (ix1 e))) i) := by
  rw [gather_rows2_apply gd hg.1 hg.2.1 hg.2.2.1 hg.2.2.2.1 hg.2.2.2.2.1 hg.2.2.2.2.2 (by decide) hNs]
  refine congrArg X (congrArg₂ (fun r n => ix3 r n i) (Fin.ext ?_) (Fin.ext ?_)) <;> dsimp only
  · rw [concatenate_pair_apply_left _ _ _ hc _ rfl (ixP e) (fun b => match b with | ⟨0, _⟩ => rfl | ⟨1, _⟩ => rfl),
      wrapTab_apply]
    rfl
  · rw [concatenate_pair_apply_right _ _ _ hc _ rfl rfl (ixP e)
      (fun b => match b with | ⟨0, _⟩ => fun _ => rfl | ⟨1, _⟩ => fun hb => (hb (Fin.ext rfl)).elim) rfl, wrapTab_apply]
    rfl

/-- The sum of the messages into `d` over the number of edges into `d` (at least one) is `neighR`. -/
theorem neigh_apply {Ns Nd E : ℕ} (hNs : 0 < Ns) (hNd : 0 < Nd)
    (gd : GatherDims ⟨3, ![6, Ns, 64]⟩ ⟨2, ![E, 2]⟩ ⟨2, ![E, 64]⟩)
    (hg : gd.offsetDims = [1] ∧ gd.collapsedSliceDims = [0, 1] ∧ gd.operandBatchingDims = [] ∧ gd.startIndexMap = [0, 1]
      ∧ gd.indexVectorDim = 1 ∧ gd.sliceSizes = ![1, 1, 64])
    (hc : Shape.Concatenates [(⟨2, ![E, 1]⟩ : Shape), ⟨2, ![E, 1]⟩] ⟨2, ![E, 2]⟩ 1)
    (h0 : S_.BroadcastsInDim ⟨1, ![E]⟩ ![]) (h1 : (⟨1, ![E]⟩ : Shape).BroadcastsInDim ⟨2, ![E, 1]⟩ ![0])
    (sd : ScatterDims ⟨2, ![Nd, 64]⟩ ⟨2, ![E, 1]⟩ ⟨2, ![E, 64]⟩) (sd1 : ScatterDims ⟨2, ![Nd, 1]⟩ ⟨2, ![E, 1]⟩ ⟨2, ![E, 1]⟩)
    (hs : sd.updateWindowDims = [1] ∧ sd.insertedWindowDims = [0] ∧ sd.scatterDimsToOperandDims = [0] ∧ sd.indexVectorDim = 1)
    (hs1 : sd1.updateWindowDims = [1] ∧ sd1.insertedWindowDims = [0] ∧ sd1.scatterDimsToOperandDims = [0]
      ∧ sd1.indexVectorDim = 1)
    (bz : S_.BroadcastsInDim ⟨2, ![Nd, 64]⟩ ![]) (bz1 : S_.BroadcastsInDim ⟨2, ![Nd, 1]⟩ ![])
    (bo : S_.BroadcastsInDim ⟨2, ![E, 1]⟩ ![]) (bc : (⟨2, ![Nd, 1]⟩ : Shape).BroadcastsInDim ⟨2, ![Nd, 64]⟩ ![0, 1])
    (X : V3 6 Ns 64) (H : Fin Ns → Fin 64 → EReal) (W : Fin 6 → Fin 64 → Fin 64 → EReal)
    (hX : ∀ r n i, X (ix3 r n i) = ∑ j : Fin 64, W r i j * H n j) (wr ws wd : I1 E)
    (hd0 : ∀ e, 0 ≤ (wd (ix1 e)).toInt) (hd1 : ∀ e, (wd (ix1 e)).toInt < (Nd : ℤ)) (d : Fin Nd) (i : Fin 64) :
    Host.divf (F := Ideal) (φ := .f32)
        (Host.scatterAdd sd (broadcastInDim _ ![] bz (constant S_ .f32 0x00000000#32)) (broadcastInDim _ ![0] h1 wd)
          (Host.gather gd X (concatenate ⟨2, ![E, 2]⟩ 1 [⟨_, wrapTab h0 h1 6 wr⟩, ⟨_, wrapTab h0 h1 Ns ws⟩] hc)))
        (broadcastInDim _ ![0, 1] bc (maximumf
          (Host.scatterAdd sd1 (broadcastInDim _ ![] bz1 (constant S_ .f32 0x00000000#32)) (broadcastInDim _ ![0] h1 wd)
            (broadcastInDim _ ![] bo (constant S_ .f32 0x3F800000#32)))
          (broadcastInDim _ ![] bz1 (constant S_ .f32 0x3F800000#32)))) (ix2 d i)
      = neighR H W (fun e => rowOf Ns hNs (ws (ix1 e))) (fun e => rowOf Nd hNd (wd (ix1 e)))
          (fun e => rowOf 6 (by decide) (wr (ix1 e))) d i := by
  have hw : ∀ e, ((broadcastInDim ⟨2, ![E, 1]⟩ ![0] h1 wd (ixP e)).toInt = (d.val : ℤ))
      ↔ rowOf Nd hNd (wd (ix1 e)) = d := fun e => by
    rw [bcast_col1, ofFin_eq_ix1, ← rowOf_val_of_range Nd hNd _ (hd0 e) (hd1 e), Fin.ext_iff, Nat.cast_inj]
  rw [hostDivf_apply, ← ij_eq_ix2, bcast_of_col, maximumf_apply, broadcastInDim_scalar_apply, constant_apply,
    Ideal.ofBits_one_f32]
  show Ideal.div (Ideal.hostScatterAdd sd _ _ _ (ij d i)) (max (Ideal.hostScatterAdd sd1 _ _ _ (ixP d)) 1) = _
  rw [ScatterRows.scatterAdd_rows_apply sd hs.1 hs.2.1 hs.2.2.1 hs.2.2.2,
    ScatterRows.scatterAdd_rows_apply sd1 hs1.1 hs1.2.1 hs1.2.2.1 hs1.2.2.2, broadcastInDim_scalar_apply,
    broadcastInDim_scalar_apply, constant_apply, Ideal.ofBits_zero_f32, zero_add, zero_add]
  unfold Ideal.div neighR cnt
  rw [if_neg (lt_of_lt_of_le zero_lt_one (le_max_right _ _)).ne', ← div_eq_mul_inv]
  refine congrArg₂ (· / ·) (Finset.sum_congr rfl fun e _ => if_congr (hw e) ?_ rfl)
    (congrArg (max · 1) (Finset.sum_congr rfl fun e _ => if_congr (hw e) ?_ rfl))
  · exact (msg_apply hNs gd hg hc h0 h1 X wr ws e i).trans (hX _ _ _)
  · rw [broadcastInDim_scalar_apply, constant_apply, Ideal.ofBits_one_f32]

/-- The first 64 columns come from `P`, the last 64 from `Q`. -/
theorem cat_apply {N : ℕ} (hc : Shape.Concatenates [(⟨2, ![N, 64]⟩ : Shape), ⟨2, ![N, 64]⟩] ⟨2, ![N, 128]⟩ 1)
    (P Q : V2 N 64) (hd hn : Fin N → Fin 64 → EReal) (hP : ∀ d j, P (ix2 d j) = hd d j) (hQ : ∀ d j, Q (ix2 d j) = hn d j)
    (j : (⟨2, ![N, 128]⟩ : Shape).Idx) :
    concatenate ⟨2, ![N, 128]⟩ 1 [⟨_, P⟩, ⟨_, Q⟩] hc j
      = if h : (j 1).val < 64 then hd (j 0) ⟨(j 1).val, h⟩ else hn (j 0) ⟨(j 1).val - 64, by have := idx2_lt1 j; omega⟩ := by
  by_cases h : (j 1).val < 64
  · rw [dif_pos h]
    exact (concatenate_pair_apply_left _ P Q hc j rfl (ix2 (j 0) ⟨(j 1).val, h⟩)
      (fun b => match b with | ⟨0, _⟩ => rfl | ⟨1, _⟩ => rfl)).trans (hP _ _)
  · rw [dif_neg h]
    exact (concatenate_pair_apply_right _ P Q hc j rfl rfl (ix2 (j 0) ⟨(j 1).val - 64, by have := idx2_lt1 j; omega⟩)
      (fun b => match b with | ⟨0, _⟩ => fun _ => rfl | ⟨1, _⟩ => fun hb => (hb (Fin.ext rfl)).elim)
      (by show (j 1).val - 64 + 64 = (j 1).val; omega)).trans (hQ _ _)

theorem ref_item (a : Cert.Gcmc.Args) (hok : a.Ok) (d : Fin 50000) (o : Fin 64) :
    (val_main_v107 (F := Ideal) a.uid a.iid a.gid a.gen a.eu a.ei a.rt a.uemb a.iemb a.gemb a.nemb a.Wrw a.Ww a.bw a.Vf a.bv
        : S50000x64.Idx → EReal) (ix2 d o) = a.itemOutR d o := by
  have hn : ∀ d i, val_main_v56 (F := Ideal) a.uid a.gid a.eu a.ei a.rt a.uemb a.gemb a.Wrw (ix2 d i)
      = neighR a.hu a.WrwF a.euF a.eiF a.rtF d i := fun d i => by
    refine neigh_apply (by decide) (by decide) _ ⟨rfl, rfl, rfl, rfl, rfl, rfl⟩ _ _ _ _ _ ⟨rfl, rfl, rfl, rfl⟩ ⟨rfl, rfl, rfl, rfl⟩
      _ _ _ _ _ a.hu a.WrwF (fun r n i => ?_) a.rt a.eu a.ei hok.ei0 hok.ei1 d i
    rw [val_main_v31_apply, val_main_v30_apply]
    exact Finset.sum_congr rfl fun j _ => congrArg₂ (· * ·) (congrArg a.Wrw (eq_ix3 _))
      ((congrArg _ (eq_ix2 _)).trans (ref_hu a _ j))
  unfold Args.itemOutR proj
  rw [val_main_v107_apply, val_main_v104_apply, val_main_v106_apply, val_main_v105_apply, Ideal.addf_def]
  refine congrArg₂ (· + ·) (Finset.sum_congr rfl fun k _ => congrArg₂ (· * ·) ?_
    ((val_main_v103_apply _ _).trans (congrArg a.Vf (eq_ix2 _)))) (congrArg a.bv (eq_ix1 _))
  rw [val_main_v63_apply, val_main_call0_v0_apply, val_main_call0_cst_apply, Ideal.ofBits_def, Ideal.ofBits_zero_f32,
    Ideal.maximumf_def, val_main_v62_apply, val_main_v59_apply, val_main_v61_apply, val_main_v60_apply, Ideal.addf_def]
  refine congrArg (max · 0) (congrArg₂ (· + ·) (Finset.sum_congr rfl fun q _ => congrArg₂ (· * ·) ?_
    ((val_main_v58_apply _ _).trans (congrArg a.Ww (eq_ix2 _)))) (congrArg a.bw (eq_ix1 _)))
  unfold val_main_v57
  exact cat_apply _ _ _ a.hi _ (ref_hi a) hn _

end Cert.ReferenceIdeal.Fr

end
-- ==== Proof.Ref.ValUser.lean ====
import proofs.«421506_j68049461838612_3_alg».proof.Proof.Ref.ValItem

noncomputable section

namespace Cert.ReferenceIdeal.Fr

open Cert.ReferenceIdeal Cert.ReferenceIdeal.Read Cert.ReferenceIdeal.Gen Idealize.ShloMosaic Idealize.ShloMosaic.ValueIdx
open Idealize.ShloMosaic.StableHlo.Predicate Idealize.ShloMosaic.GatherRows Cert.Gcmc

theorem ref_user (a : Cert.Gcmc.Args) (hok : a.Ok) (d : Fin 100000) (o : Fin 64) :
    (val_main_v102 (F := Ideal) a.uid a.iid a.gid a.gen a.eu a.ei a.rt a.uemb a.iemb a.gemb a.nemb a.Wrwb a.Wwb a.bwb a.Wf
      a.bf : S100000x64.Idx → EReal) (ix2 d o) = a.userOutR d o := by
  have hn : ∀ d i, val_main_v90 (F := Ideal) a.iid a.gen a.eu a.ei a.rt a.iemb a.nemb a.Wrwb (ix2 d i)
      = neighR a.hi a.WrwbF a.eiF a.euF a.rtF d i := fun d i => by
    refine neigh_apply (by decide) (by decide) _ ⟨rfl, rfl, rfl, rfl, rfl, rfl⟩ _ _ _ _ _ ⟨rfl, rfl, rfl, rfl⟩ ⟨rfl, rfl, rfl, rfl⟩
      _ _ _ _ _ a.hi a.WrwbF (fun r n i => ?_) a.rt a.ei a.eu hok.eu0 hok.eu1 d i
    rw [val_main_v65_apply, val_main_v64_apply]
    exact Finset.sum_congr rfl fun j _ => congrArg₂ (· * ·) (congrArg a.Wrwb (eq_ix3 _))
      ((congrArg _ (eq_ix2 _)).trans (ref_hi a _ j))
  unfold Args.userOutR proj
  rw [val_main_v102_apply, val_main_v99_apply, val_main_v101_apply, val_main_v100_apply, Ideal.addf_def]
  refine congrArg₂ (· + ·) (Finset.sum_congr rfl fun k _ => congrArg₂ (· * ·) ?_
    ((val_main_v98_apply _ _).trans (congrArg a.Wf (eq_ix2 _)))) (congrArg a.bf (eq_ix1 _))
  rw [val_main_v97_apply, val_main_call1_v0_apply, val_main_call1_cst_apply, Ideal.ofBits_def, Ideal.ofBits_zero_f32,
    Ideal.maximumf_def, val_main_v96_apply, val_main_v93_apply, val_main_v95_apply, val_main_v94_apply, Ideal.addf_def]
  refine congrArg (max · 0) (congrArg₂ (· + ·) (Finset.sum_congr rfl fun q _ => congrArg₂ (· * ·) ?_
    ((val_main_v92_apply _ _).trans (congrArg a.Wwb (eq_ix2 _)))) (congrArg a.bwb (eq_ix1 _)))
  unfold val_main_v91
  exact cat_apply _ _ _ a.hu _ (ref_hu a) hn _

end Cert.ReferenceIdeal.Fr

end
-- ==== Proof.Ref.ArgsOf.lean ====
import proofs.«421506_j68049461838612_3_alg».proof.ReferenceIdeal
import proofs.«421506_j68049461838612_3_alg».proof.Proof.Readers

noncomputable section

namespace Cert.ReferenceIdeal.Fr

open Idealize.ShloMosaic Idealize.SL.Sem Cert.ReferenceIdeal

def argsOf (W : Valuation τ sig (Elt Ideal)) : Cert.Gcmc.Args where
  uid := W (Proc.devRef .tc main_arg0)
  iid := W (Proc.devRef .tc main_arg1)
  gid := W (Proc.devRef .tc main_arg2)
  gen := W (Proc.devRef .tc main_arg3)
  eu := W (Proc.devRef .tc main_arg4)
  ei := W (Proc.devRef .tc main_arg5)
  rt := W (Proc.devRef .tc main_arg6)
  uemb := W (Proc.devRef .tc main_arg7)
  iemb := W (Proc.devRef .tc main_arg8)
  gemb := W (Proc.devRef .tc main_arg9)
  nemb := W (Proc.devRef .tc main_arg10)
  Wrw := W (Proc.devRef .tc main_arg11)
  Wrwb := W (Proc.devRef .tc main_arg12)
  Ww := W (Proc.devRef .tc main_arg13)
  bw := W (Proc.devRef .tc main_arg14)
  Wwb := W (Proc.devRef .tc main_arg15)
  bwb := W (Proc.devRef .tc main_arg16)
  Wf := W (Proc.devRef .tc main_arg17)
  bf := W (Proc.devRef .tc main_arg18)
  Vf := W (Proc.devRef .tc main_arg19)
  bv := W (Proc.devRef .tc main_arg20)

end Cert.ReferenceIdeal.Fr

end
-- ==== Proof.lean ====
import proofs.«421506_j68049461838612_3_alg».proof.Defs
import proofs.«421506_j68049461838612_3_alg».proof.Proof.Gen.Kernel
import proofs.«421506_j68049461838612_3_alg».proof.Proof.Gen.KernelIdeal
import proofs.«421506_j68049461838612_3_alg».proof.Proof.Gen.ReferenceIdeal
import proofs.«421506_j68049461838612_3_alg».proof.Proof.Gen.Pre_finite_inputs
import proofs.«421506_j68049461838612_3_alg».proof.Proof.Gen.ReferenceIdeal.Run
import proofs.«421506_j68049461838612_3_alg».proof.Proof.Gen.ReferenceIdeal.Read
import proofs.«421506_j68049461838612_3_alg».proof.Proof.K.Keep
import proofs.«421506_j68049461838612_3_alg».proof.Proof.KI.Final
import proofs.«421506_j68049461838612_3_alg».proof.Proof.KI.PreDecode
import proofs.«421506_j68049461838612_3_alg».proof.Proof.Ref.ValItem
import proofs.«421506_j68049461838612_3_alg».proof.Proof.Ref.ValUser
import proofs.«421506_j68049461838612_3_alg».proof.Proof.Ref.ArgsOf

noncomputable section

namespace Cert.Proof

open Idealize.ShloMosaic Idealize.ShloMosaic.TcCoe Idealize.SL.Sem Idealize.ShloMosaic.ValueIdx

section Claims

variable [Cert.Kernel.Facts] [Cert.KernelIdeal.Facts] [Cert.ReferenceIdeal.Facts] [Cert.Pre_finite_inputs.Facts]

/-- Each program runs to the end from any memory and writes none of its arguments. -/
theorem frame_k : Cert.frame_Kernel := fun m ρ _ =>
  (θ_run (Cert.Kernel.defs (F := Bits)) _ _).mono (fun r h c => by
    refine ⟨?_, ?_, ?_, ?_, ?_, ?_, ?_, ?_, ?_, ?_, ?_, ?_, ?_, ?_, ?_, ?_, ?_, ?_, ?_, ?_, ?_⟩ <;>
      exact (h c _ (Cert.Kernel.Fr.mem_uc _ (by decide))).trans (Cert.Kernel.Fr.W7_low m ρ c _ (by decide)))
    (Cert.Kernel.Fr.run_all (F := Bits) m ρ)

theorem frame_ki : Cert.frame_KernelIdeal := fun m ρ _ =>
  (θ_run (Cert.KernelIdeal.defs (F := Ideal)) _ _).mono (fun r h c => by
    refine ⟨?_, ?_, ?_, ?_, ?_, ?_, ?_, ?_, ?_, ?_, ?_, ?_, ?_, ?_, ?_, ?_, ?_, ?_, ?_, ?_, ?_⟩ <;>
      exact (h c _ (Cert.KernelIdeal.Fr.mem_uc _ (by decide))).trans (Cert.KernelIdeal.Fr.W7_low m ρ c _ (by decide)))
    (Cert.KernelIdeal.Fr.run_all (F := Ideal) m ρ)

theorem frame_ri : Cert.frame_ReferenceIdeal := fun m ρ _ =>
  (θ_run (Cert.ReferenceIdeal.defs (F := Ideal)) _ _).mono (fun _ h c => (h c).2.2) (Cert.ReferenceIdeal.Value.run (F := Ideal) m ρ)

/-- Each side's two results are one function of the argument arrays, and the two functions agree where every edge
    names a row of the table it indexes and the float inputs are finite. -/
theorem algebraic : Cert.algebraic_KernelIdeal_ReferenceIdeal := by
  intro m ρ m' ρ' hpre hagree
  refine ⟨fun c => Cert.KernelIdeal.Fr.W7 m ρ c (Proc.devRef .tc Cert.KernelIdeal.main_v96),
    fun c => Cert.KernelIdeal.Fr.W7 m ρ c (Proc.devRef .tc Cert.KernelIdeal.main_v91), ?_, ?_⟩
  · exact (θ_run (Cert.KernelIdeal.defs (F := Ideal)) _ _).mono (fun r h c => by
      refine ⟨h c _ (Cert.KernelIdeal.Fr.mem_uc Cert.KernelIdeal.main_v96 (by decide)),
        h c _ (Cert.KernelIdeal.Fr.mem_uc Cert.KernelIdeal.main_v91 (by decide)), ?_, ?_, ?_, ?_, ?_, ?_, ?_, ?_, ?_, ?_, ?_, ?_, ?_, ?_, ?_, ?_, ?_, ?_, ?_, ?_, ?_⟩ <;>
        exact (h c _ (Cert.KernelIdeal.Fr.mem_uc _ (by decide))).trans (Cert.KernelIdeal.Fr.W7_low m ρ c _ (by decide)))
      (Cert.KernelIdeal.Fr.run_all (F := Ideal) m ρ)
  · refine (θ_run (Cert.ReferenceIdeal.defs (F := Ideal)) _ _).mono (fun r h c => ⟨(h c).1.trans ?_, (h c).2.1.trans ?_, (h c).2.2⟩)
      (Cert.ReferenceIdeal.Value.run (F := Ideal) m' ρ')
    all_goals
      have hok := Cert.KernelIdeal.Fr.ok_of_pre m hpre c
      have hargs : Cert.ReferenceIdeal.Fr.argsOf (fun b => m' ((c : Dev Cert.ReferenceIdeal.nD), b))
          = Cert.KernelIdeal.Fr.argsOf (fun b => m ((c : Dev Cert.KernelIdeal.nD), b)) := by
        obtain ⟨h0, h1, h2, h3, h4, h5, h6, h7, h8, h9, h10, h11, h12, h13, h14, h15, h16, h17, h18, h19, h20⟩ := hagree c
        unfold Cert.ReferenceIdeal.Fr.argsOf Cert.KernelIdeal.Fr.argsOf
        congr 1
      funext y
    · obtain ⟨d, o, rfl⟩ : ∃ (d : Fin 100000) (o : Fin 64), y = ix2 d o := ⟨y 0, y 1, eq_ix2 y⟩
      rw [Cert.ReferenceIdeal.Read.val_main_v102_eq]
      refine (Cert.ReferenceIdeal.Fr.ref_user (Cert.ReferenceIdeal.Fr.argsOf (fun b => m' ((c : Dev Cert.ReferenceIdeal.nD), b))) (hargs ▸ hok) d o).trans ?_
      rw [hargs, ← (Cert.Gcmc.Args.out_eq _ hok).1]
      exact (Cert.KernelIdeal.Fr.kernel_user m ρ c hok d o).symm
    · obtain ⟨d, o, rfl⟩ : ∃ (d : Fin 50000) (o : Fin 64), y = ix2 d o := ⟨y 0, y 1, eq_ix2 y⟩
      rw [Cert.ReferenceIdeal.Read.val_main_v107_eq]
      refine (Cert.ReferenceIdeal.Fr.ref_item (Cert.ReferenceIdeal.Fr.argsOf (fun b => m' ((c : Dev Cert.ReferenceIdeal.nD), b))) (hargs ▸ hok) d o).trans ?_
      rw [hargs, ← (Cert.Gcmc.Args.out_eq _ hok).2]
      exact (Cert.KernelIdeal.Fr.kernel_item m ρ c hok d o).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
